-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x7 : Shape := ⟨2, ![2048, 7]⟩
abbrev S2048 : Shape := ⟨1, ![2048]⟩
abbrev S2048x8 : Shape := ⟨2, ![2048, 8]⟩
abbrev S2048x256 : Shape := ⟨2, ![2048, 256]⟩
abbrev S10000x128 : Shape := ⟨2, ![10000, 128]⟩
abbrev S50000x256 : Shape := ⟨2, ![50000, 256]⟩
abbrev S1024x647 : Shape := ⟨2, ![1024, 647]⟩
abbrev S1024 : Shape := ⟨1, ![1024]⟩
abbrev S10000x1024 : Shape := ⟨2, ![10000, 1024]⟩
abbrev S10000 : Shape := ⟨1, ![10000]⟩
abbrev S_ : Shape := ⟨0, ![]⟩

class Facts : Prop where
  bcast_S_S2048x7 : S_.BroadcastsInDim S2048x7 (![] : Fin 0 → Fin S2048x7.rank)
  reducesTo_S2048x7_S_d0_1 : S2048x7.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S10000x128 : S_.BroadcastsInDim S10000x128 (![] : Fin 0 → Fin S10000x128.rank)
  reducesTo_S10000x128_S_d0_1 : S10000x128.ReducesTo [0, 1] S_
  bcast_S_S50000x256 : S_.BroadcastsInDim S50000x256 (![] : Fin 0 → Fin S50000x256.rank)
  reducesTo_S50000x256_S_d0_1 : S50000x256.ReducesTo [0, 1] S_
  bcast_S_S1024x647 : S_.BroadcastsInDim S1024x647 (![] : Fin 0 → Fin S1024x647.rank)
  reducesTo_S1024x647_S_d0_1 : S1024x647.ReducesTo [0, 1] S_
  bcast_S_S1024 : S_.BroadcastsInDim S1024 (![] : Fin 0 → Fin S1024.rank)
  reducesTo_S1024_S_d0 : S1024.ReducesTo [0] S_
  bcast_S_S10000x1024 : S_.BroadcastsInDim S10000x1024 (![] : Fin 0 → Fin S10000x1024.rank)
  reducesTo_S10000x1024_S_d0_1 : S10000x1024.ReducesTo [0, 1] S_
  bcast_S_S10000 : S_.BroadcastsInDim S10000 (![] : Fin 0 → Fin S10000.rank)
  reducesTo_S10000_S_d0 : S10000.ReducesTo [0] S_
  bcast_S_S2048 : S_.BroadcastsInDim S2048 (![] : Fin 0 → Fin S2048.rank)
  reducesTo_S2048_S_d0 : S2048.ReducesTo [0] S_
  bcast_S_S2048x8 : S_.BroadcastsInDim S2048x8 (![] : Fin 0 → Fin S2048x8.rank)
  reducesTo_S2048x8_S_d0_1 : S2048x8.ReducesTo [0, 1] S_

variable [Facts]

def fn_part3 {F : FTy → Type} [FloatOps F] (main_arg2 : IVec S2048x8 32) (main_arg3 : IVec S2048x8 32) (main_v50 : IVec S_ 1) : IVec S_ 1 :=
  let main_c_19 : IVec S_ 32 := constantI S_ 32 0#32
  let main_v51 : IVec S2048x8 32 := broadcastInDim S2048x8 ![] bcast_S_S2048x8 main_c_19
  let main_v52 : IVec S2048x8 1 := cmpi .sge main_arg2 main_v51
  let main_c_20 : IVec S_ 32 := constantI S_ 32 50000#32
  let main_v53 : IVec S2048x8 32 := broadcastInDim S2048x8 ![] bcast_S_S2048x8 main_c_20
  let main_v54 : IVec S2048x8 1 := cmpi .slt main_arg2 main_v53
  let main_v55 : IVec S2048x8 1 := andi main_v52 main_v54
  let main_c_21 : IVec S_ 1 := constantI S_ 1 1#1
  let main_v56 : IVec S_ 1 := (fun x v => Host.reduce IntOp.andi x v reducesTo_S2048x8_S_d0_1 h_S_) main_v55 main_c_21
  let main_v57 : IVec S_ 1 := andi main_v50 main_v56
  let main_c_22 : IVec S_ 32 := constantI S_ 32 0#32
  let main_v58 : IVec S2048x8 32 := broadcastInDim S2048x8 ![] bcast_S_S2048x8 main_c_22
  let main_v59 : IVec S2048x8 1 := cmpi .sge main_arg3 main_v58
  let main_c_23 : IVec S_ 32 := constantI S_ 32 50000#32
  let main_v60 : IVec S2048x8 32 := broadcastInDim S2048x8 ![] bcast_S_S2048x8 main_c_23
  let main_v61 : IVec S2048x8 1 := cmpi .slt main_arg3 main_v60
  let main_v62 : IVec S2048x8 1 := andi main_v59 main_v61
  let main_c_24 : IVec S_ 1 := constantI S_ 1 1#1
  let main_v63 : IVec S_ 1 := (fun x v => Host.reduce IntOp.andi x v reducesTo_S2048x8_S_d0_1 h_S_) main_v62 main_c_24
  let main_v64 : IVec S_ 1 := andi main_v57 main_v63
  main_v64

def fn_part2 {F : FTy → Type} [FloatOps F] (main_arg1 : IVec S2048 32) (main_arg2 : IVec S2048x8 32) (main_arg3 : IVec S2048x8 32) (main_arg10 : FVec F S10000x1024 .f32) (main_arg11 : FVec F S10000 .f32) (main_v33 : IVec S_ 1) : IVec S_ 1 :=
  let main_v34 : FVec F S10000x1024 .f32 := Host.absf main_arg10
  let main_cst_12 : FVec F S_ .f32 := constant S_ .f32 0x7F800000#32
  let main_v35 : FVec F S10000x1024 .f32 := broadcastInDim S10000x1024 ![] bcast_S_S10000x1024 main_cst_12
  let main_v36 : IVec S10000x1024 1 := cmpf .olt main_v34 main_v35
  let main_c_13 : IVec S_ 1 := constantI S_ 1 1#1
  let main_v37 : IVec S_ 1 := (fun x v => Host.reduce IntOp.andi x v reducesTo_S10000x1024_S_d0_1 h_S_) main_v36 main_c_13
  let main_v38 : IVec S_ 1 := andi main_v33 main_v37
  let main_v39 : FVec F S10000 .f32 := Host.absf main_arg11
  let main_cst_14 : FVec F S_ .f32 := constant S_ .f32 0x7F800000#32
  let main_v40 : FVec F S10000 .f32 := broadcastInDim S10000 ![] bcast_S_S10000 main_cst_14
  let main_v41 : IVec S10000 1 := cmpf .olt main_v39 main_v40
  let main_c_15 : IVec S_ 1 := constantI S_ 1 1#1
  let main_v42 : IVec S_ 1 := (fun x v => Host.reduce IntOp.andi x v reducesTo_S10000_S_d0 h_S_) main_v41 main_c_15
  let main_v43 : IVec S_ 1 := andi main_v38 main_v42
  let main_c_16 : IVec S_ 32 := constantI S_ 32 0#32
  let main_v44 : IVec S2048 32 := broadcastInDim S2048 ![] bcast_S_S2048 main_c_16
  let main_v45 : IVec S2048 1 := cmpi .sge main_arg1 main_v44
  let main_c_17 : IVec S_ 32 := constantI S_ 32 10000#32
  let main_v46 : IVec S2048 32 := broadcastInDim S2048 ![] bcast_S_S2048 main_c_17
  let main_v47 : IVec S2048 1 := cmpi .slt main_arg1 main_v46
  let main_v48 : IVec S2048 1 := andi main_v45 main_v47
  let main_c_18 : IVec S_ 1 := constantI S_ 1 1#1
  let main_v49 : IVec S_ 1 := (fun x v => Host.reduce IntOp.andi x v reducesTo_S2048_S_d0 h_S_) main_v48 main_c_18
  let main_v50 : IVec S_ 1 := andi main_v43 main_v49
  fn_part3 (F := F) main_arg2 main_arg3 main_v50

def fn_part1 {F : FTy → Type} [FloatOps F] (main_arg1 : IVec S2048 32) (main_arg2 : IVec S2048x8 32) (main_arg3 : IVec S2048x8 32) (main_arg7 : FVec F S50000x256 .f32) (main_arg8 : FVec F S1024x647 .f32) (main_arg9 : FVec F S1024 .f32) (main_arg10 : FVec F S10000x1024 .f32) (main_arg11 : FVec F S10000 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S50000x256 .f32 := Host.absf main_arg7
  let main_cst_6 : FVec F S_ .f32 := constant S_ .f32 0x7F800000#32
  let main_v20 : FVec F S50000x256 .f32 := broadcastInDim S50000x256 ![] bcast_S_S50000x256 main_cst_6
  let main_v21 : IVec S50000x256 1 := cmpf .olt main_v19 main_v20
  let main_c_7 : IVec S_ 1 := constantI S_ 1 1#1
  let main_v22 : IVec S_ 1 := (fun x v => Host.reduce IntOp.andi x v reducesTo_S50000x256_S_d0_1 h_S_) main_v21 main_c_7
  let main_v23 : IVec S_ 1 := andi main_v18 main_v22
  let main_v24 : FVec F S1024x647 .f32 := Host.absf main_arg8
  let main_cst_8 : FVec F S_ .f32 := constant S_ .f32 0x7F800000#32
  let main_v25 : FVec F S1024x647 .f32 := broadcastInDim S1024x647 ![] bcast_S_S1024x647 main_cst_8
  let main_v26 : IVec S1024x647 1 := cmpf .olt main_v24 main_v25
  let main_c_9 : IVec S_ 1 := constantI S_ 1 1#1
  let main_v27 : IVec S_ 1 := (fun x v => Host.reduce IntOp.andi x v reducesTo_S1024x647_S_d0_1 h_S_) main_v26 main_c_9
  let main_v28 : IVec S_ 1 := andi main_v23 main_v27
  let main_v29 : FVec F S1024 .f32 := Host.absf main_arg9
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg2 main_arg3 main_arg10 main_arg11 main_v33

def fn {F : FTy → Type} [FloatOps F] (main_arg0 : FVec F S2048x7 .f32) (main_arg1 : IVec S2048 32) (main_arg2 : IVec S2048x8 32) (main_arg3 : IVec S2048x8 32) (main_arg4 : FVec F S2048x256 .f32) (main_arg5 : FVec F S2048x256 .f32) (main_arg6 : FVec F S10000x128 .f32) (main_arg7 : FVec F S50000x256 .f32) (main_arg8 : FVec F S1024x647 .f32) (main_arg9 : FVec F S1024 .f32) (main_arg10 : FVec F S10000x1024 .f32) (main_arg11 : FVec F S10000 .f32) : IVec S_ 1 :=
  let main_v0 : FVec F S2048x7 .f32 := Host.absf main_arg0
  let main_cst : FVec F S_ .f32 := constant S_ .f32 0x7F800000#32
  let main_v1 : FVec F S2048x7 .f32 := broadcastInDim S2048x7 ![] bcast_S_S2048x7 main_cst
  let main_v2 : IVec S2048x7 1 := cmpf .olt main_v0 main_v1
  let main_c : IVec S_ 1 := constantI S_ 1 1#1
  let main_v3 : IVec S_ 1 := (fun x v => Host.reduce IntOp.andi x v reducesTo_S2048x7_S_d0_1 h_S_) main_v2 main_c
  let main_v4 : FVec F S2048x256 .f32 := Host.absf main_arg4
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg5
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S10000x128 .f32 := Host.absf main_arg6
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg1 main_arg2 main_arg3 main_arg7 main_arg8 main_arg9 main_arg10 main_arg11 main_v13 main_v16
-- ==== Kernel.lean ====
abbrev S2048x7 : Shape := ⟨2, ![2048, 7]⟩
abbrev S2048 : Shape := ⟨1, ![2048]⟩
abbrev S2048x8 : Shape := ⟨2, ![2048, 8]⟩
abbrev S2048x256 : Shape := ⟨2, ![2048, 256]⟩
abbrev S10000x128 : Shape := ⟨2, ![10000, 128]⟩
abbrev S50000x256 : Shape := ⟨2, ![50000, 256]⟩
abbrev S1024x647 : Shape := ⟨2, ![1024, 647]⟩
abbrev S1024 : Shape := ⟨1, ![1024]⟩
abbrev S10000x1024 : Shape := ⟨2, ![10000, 1024]⟩
abbrev S10000 : Shape := ⟨1, ![10000]⟩
abbrev S2048x1 : Shape := ⟨2, ![2048, 1]⟩
abbrev S2048x768 : Shape := ⟨2, ![2048, 768]⟩
abbrev S512x1 : Shape := ⟨2, ![512, 1]⟩
abbrev S512x8 : Shape := ⟨2, ![512, 8]⟩
abbrev S512x256 : Shape := ⟨2, ![512, 256]⟩
abbrev S512x7 : Shape := ⟨2, ![512, 7]⟩
abbrev S400x128 : Shape := ⟨2, ![400, 128]⟩
abbrev S2000x256 : Shape := ⟨2, ![2000, 256]⟩
abbrev S512x768 : Shape := ⟨2, ![512, 768]⟩
abbrev S512x128 : Shape := ⟨2, ![512, 128]⟩
abbrev S512x400 : Shape := ⟨2, ![512, 400]⟩
abbrev S512x2000 : Shape := ⟨2, ![512, 2000]⟩
abbrev S512x121 : Shape := ⟨2, ![512, 121]⟩
abbrev S647x1024 : Shape := ⟨2, ![647, 1024]⟩
abbrev S_ : Shape := ⟨0, ![]⟩
abbrev S768x1024 : Shape := ⟨2, ![768, 1024]⟩
abbrev S1024x10000 : Shape := ⟨2, ![1024, 10000]⟩
abbrev S1x1024 : Shape := ⟨2, ![1, 1024]⟩
abbrev S1x10000 : Shape := ⟨2, ![1, 10000]⟩
abbrev S2048x10000 : Shape := ⟨2, ![2048, 10000]⟩
abbrev S128x768 : Shape := ⟨2, ![128, 768]⟩
abbrev S128x10000 : Shape := ⟨2, ![128, 10000]⟩
abbrev S128x1024 : Shape := ⟨2, ![128, 1024]⟩
abbrev S128 : Shape := ⟨1, ![128]⟩
abbrev S128x1 : Shape := ⟨2, ![128, 1]⟩

abbrev nBuf : Space → Nat
  | .hbm => 26
  | .vmem => 29
  | .smem => 0
  | _ => 0

abbrev bufTy : (tb : Table) → Fin (tcTables nBuf tb) → BufTy
  | .hbm, ⟨0, _⟩ => ⟨S2048x7, .f32⟩
  | .hbm, ⟨1, _⟩ => ⟨S2048, .i32⟩
  | .hbm, ⟨2, _⟩ => ⟨S2048x8, .i32⟩
  | .hbm, ⟨3, _⟩ => ⟨S2048x8, .i32⟩
  | .hbm, ⟨4, _⟩ => ⟨S2048x256, .f32⟩
  | .hbm, ⟨5, _⟩ => ⟨S2048x256, .f32⟩
  | .hbm, ⟨6, _⟩ => ⟨S10000x128, .f32⟩
  | .hbm, ⟨7, _⟩ => ⟨S50000x256, .f32⟩
  | .hbm, ⟨8, _⟩ => ⟨S1024x647, .f32⟩
  | .hbm, ⟨9, _⟩ => ⟨S1024, .f32⟩
  | .hbm, ⟨10, _⟩ => ⟨S10000x1024, .f32⟩
  | .hbm, ⟨11, _⟩ => ⟨S10000, .f32⟩
  | .hbm, ⟨12, _⟩ => ⟨S2048x1, .i32⟩
  | .hbm, ⟨13, _⟩ => ⟨S10000x128, .bf16⟩
  | .hbm, ⟨14, _⟩ => ⟨S50000x256, .bf16⟩
  | .hbm, ⟨15, _⟩ => ⟨S2048x768, .bf16⟩
  | .hbm, ⟨16, _⟩ => ⟨S647x1024, .f32⟩
  | .hbm, ⟨17, _⟩ => ⟨S_, .i32⟩
  | .hbm, ⟨18, _⟩ => ⟨S_, .f32⟩
  | .hbm, ⟨19, _⟩ => ⟨S768x1024, .f32⟩
  | .hbm, ⟨20, _⟩ => ⟨S768x1024, .bf16⟩
  | .hbm, ⟨21, _⟩ => ⟨S1024x10000, .f32⟩
  | .hbm, ⟨22, _⟩ => ⟨S1024x10000, .bf16⟩
  | .hbm, ⟨23, _⟩ => ⟨S1x1024, .f32⟩
  | .hbm, ⟨24, _⟩ => ⟨S1x10000, .f32⟩
  | .hbm, ⟨25, _⟩ => ⟨S2048x10000, .f32⟩
  | .local _ .vmem, ⟨0, _⟩ => ⟨S512x1, .i32⟩
  | .local _ .vmem, ⟨1, _⟩ => ⟨S512x1, .i32⟩
  | .local _ .vmem, ⟨2, _⟩ => ⟨S512x8, .i32⟩
  | .local _ .vmem, ⟨3, _⟩ => ⟨S512x8, .i32⟩
  | .local _ .vmem, ⟨4, _⟩ => ⟨S512x8, .i32⟩
  | .local _ .vmem, ⟨5, _⟩ => ⟨S512x8, .i32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x7, .f32⟩
  | .local _ .vmem, ⟨11, _⟩ => ⟨S512x7, .f32⟩
  | .local _ .vmem, ⟨12, _⟩ => ⟨S400x128, .bf16⟩
  | .local _ .vmem, ⟨13, _⟩ => ⟨S400x128, .bf16⟩
  | .local _ .vmem, ⟨14, _⟩ => ⟨S2000x256, .bf16⟩
  | .local _ .vmem, ⟨15, _⟩ => ⟨S2000x256, .bf16⟩
  | .local _ .vmem, ⟨16, _⟩ => ⟨S512x768, .bf16⟩
  | .local _ .vmem, ⟨17, _⟩ => ⟨S512x768, .bf16⟩
  | .local _ .vmem, ⟨18, _⟩ => ⟨S512x128, .f32⟩
  | .local _ .vmem, ⟨19, _⟩ => ⟨S512x256, .f32⟩
  | .local _ .vmem, ⟨20, _⟩ => ⟨S512x256, .f32⟩
  | .local _ .vmem, ⟨21, _⟩ => ⟨S128x768, .bf16⟩
  | .local _ .vmem, ⟨22, _⟩ => ⟨S128x768, .bf16⟩
  | .local _ .vmem, ⟨23, _⟩ => ⟨S768x1024, .bf16⟩
  | .local _ .vmem, ⟨24, _⟩ => ⟨S1x1024, .f32⟩
  | .local _ .vmem, ⟨25, _⟩ => ⟨S1024x10000, .bf16⟩
  | .local _ .vmem, ⟨26, _⟩ => ⟨S1x10000, .f32⟩
  | .local _ .vmem, ⟨27, _⟩ => ⟨S128x10000, .f32⟩
  | .local _ .vmem, ⟨28, _⟩ => ⟨S128x10000, .f32⟩
  | _, _ => ⟨S2048x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v110 : BitVec 1 := Scalar.cmpi .eq arg1 c24_i32
  let v111 : BitVec 32 := Scalar.extui v110
  let c0_i32_47 : BitVec 32 := 0#32
  let v112 : BitVec 1 := Scalar.cmpi .ne v111 c0_i32_47
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x7 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x10000 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x10000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S2048_S2048x1 : S2048.ShapeCasts S2048x1
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x400_d1_w32 : S512x400.Iotas .tc 32 [1]
  iota_S512x2000_d1_w32 : S512x2000.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x400 : S512x1.Broadcasts S512x400
  natLt_1_32 : 1 < 32
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S512x8_S512x1_0_0 : ∀ a, (![0, 0] : Fin 2 → Nat) a + S512x1.size a ≤ S512x8.size a
  broadcasts_S512x1_S512x2000 : S512x1.Broadcasts S512x2000
  inb_S512x8_S512x1_0_1 : ∀ a, (![0, 1] : Fin 2 → Nat) a + S512x1.size a ≤ S512x8.size a
  inb_S512x8_S512x1_0_2 : ∀ a, (![0, 2] : Fin 2 → Nat) a + S512x1.size a ≤ S512x8.size a
  inb_S512x8_S512x1_0_3 : ∀ a, (![0, 3] : Fin 2 → Nat) a + S512x1.size a ≤ S512x8.size a
  inb_S512x8_S512x1_0_4 : ∀ a, (![0, 4] : Fin 2 → Nat) a + S512x1.size a ≤ S512x8.size a
  inb_S512x8_S512x1_0_5 : ∀ a, (![0, 5] : Fin 2 → Nat) a + S512x1.size a ≤ S512x8.size a
  inb_S512x8_S512x1_0_6 : ∀ a, (![0, 6] : Fin 2 → Nat) a + S512x1.size a ≤ S512x8.size a
  inb_S512x8_S512x1_0_7 : ∀ a, (![0, 7] : Fin 2 → Nat) a + S512x1.size a ≤ S512x8.size a
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S512x768_S512x128_0_0 : ∀ a, (![0, 0] : Fin 2 → Nat) a + S512x128.size a ≤ S512x768.size a
  packedbf16_S512x768_S512x128_0_0 : (Rect.unit (s := S512x768) ![0, 0] S512x128.size inb_S512x768_S512x128_0_0).PackedRows (EltTy.packing .bf16)
  inb_S512x768_S512x256_0_128 : ∀ a, (![0, 128] : Fin 2 → Nat) a + S512x256.size a ≤ S512x768.size a
  packedbf16_S512x768_S512x256_0_128 : (Rect.unit (s := S512x768) ![0, 128] S512x256.size inb_S512x768_S512x256_0_128).PackedRows (EltTy.packing .bf16)
  inb_S512x768_S512x256_0_384 : ∀ a, (![0, 384] : Fin 2 → Nat) a + S512x256.size a ≤ S512x768.size a
  packedbf16_S512x768_S512x256_0_384 : (Rect.unit (s := S512x768) ![0, 384] S512x256.size inb_S512x768_S512x256_0_384).PackedRows (EltTy.packing .bf16)
  inb_S512x7_S512x7_0_0 : ∀ a, (![0, 0] : Fin 2 → Nat) a + S512x7.size a ≤ S512x7.size a
  h_S512x7 : 0 < S512x7.numel
  inb_S512x768_S512x7_0_640 : ∀ a, (![0, 640] : Fin 2 → Nat) a + S512x7.size a ≤ S512x768.size a
  packedbf16_S512x768_S512x7_0_640 : (Rect.unit (s := S512x768) ![0, 640] S512x7.size inb_S512x768_S512x7_0_640).PackedRows (EltTy.packing .bf16)
  inb_S512x768_S512x121_0_647 : ∀ a, (![0, 647] : Fin 2 → Nat) a + S512x121.size a ≤ S512x768.size a
  h_S512x121 : 0 < S512x121.numel
  packedbf16_S512x768_S512x121_0_647 : (Rect.unit (s := S512x768) ![0, 647] S512x121.size inb_S512x768_S512x121_0_647).PackedRows (EltTy.packing .bf16)
  transposes_S1024x647_S647x1024_1_0 : S1024x647.Transposes [1, 0] S647x1024
  pads_S647x1024_S768x1024_01210_000 : S647x1024.Pads (![0, 0] : Fin 2 → Nat) ![121, 0] ![0, 0] S768x1024
  h_S_ : 0 < S_.numel
  transposes_S10000x1024_S1024x10000_1_0 : S10000x1024.Transposes [1, 0] S1024x10000
  shapeCasts_S1024_S1x1024 : S1024.ShapeCasts S1x1024
  shapeCasts_S10000_S1x10000 : S10000.ShapeCasts S1x10000
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x10000_S1024x10000_0_0 : ∀ a, (![0, 0] : Fin 2 → Nat) a + S1024x10000.size a ≤ S1024x10000.size a
  h_S1024x10000 : 0 < S1024x10000.numel
  shapeCasts_S1024x10000_S1024x10000 : S1024x10000.ShapeCasts S1024x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S128x10000 : S1x10000.Broadcasts S128x10000
  reduces_S128x10000_S128 : S128x10000.Reduces [1] S128
  shapeCasts_S128_S128x1 : S128.ShapeCasts S128x1
  broadcasts_S128x1_S128x10000 : S128x1.Broadcasts S128x10000
  inb_S128x10000_S128x10000_0_0 : ∀ a, (![0, 0] : Fin 2 → Nat) a + S128x10000.size a ≤ S128x10000.size a
  h_S128x10000 : 0 < S128x10000.numel
  dot_S512x400_S400x128_S512x128_1_0_0_1_n_n_wf : DotDims.WF S512x400 S400x128 S512x128 [1] [0] [0] [1] [] []
  dot_S512x2000_S2000x256_S512x256_1_0_0_1_n_n_wf : DotDims.WF S512x2000 S2000x256 S512x256 [1] [0] [0] [1] [] []
  dot_S128x768_S768x1024_S128x1024_1_0_0_1_n_n_wf : DotDims.WF S128x768 S768x1024 S128x1024 [1] [0] [0] [1] [] []
  dot_S128x1024_S1024x10000_S128x10000_1_0_0_1_n_n_wf : DotDims.WF S128x1024 S1024x10000 S128x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S2048x1.size a
  hwx0_0 : ∀ i : grid0.Coords, EltTy.bits .i32 = 32 ∨ (Rect.block (s := S2048x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S2048x8.size a
  hwx0_1 : ∀ i : grid0.Coords, EltTy.bits .i32 = 32 ∨ (Rect.block (s := S2048x8) S512x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S2048x8.size a
  hwx0_2 : ∀ i : grid0.Coords, EltTy.bits .i32 = 32 ∨ (Rect.block (s := S2048x8) S512x8.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x256.size a
  hwx0_3 : ∀ i : grid0.Coords, EltTy.bits .f32 = 32 ∨ (Rect.block (s := S2048x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x256.size a
  hwx0_4 : ∀ i : grid0.Coords, EltTy.bits .f32 = 32 ∨ (Rect.block (s := S2048x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x7.size a ≤ S2048x7.size a
  hwx0_5 : ∀ i : grid0.Coords, EltTy.bits .f32 = 32 ∨ (Rect.block (s := S2048x7) S512x7.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .bf16 = 32 ∨ (Rect.block (s := S50000x256) S2000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x768.size a ≤ S2048x768.size a
  hwx0_8 : ∀ i : grid0.Coords, EltTy.bits .bf16 = 32 ∨ (Rect.block (s := S2048x768) S512x768.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x768.size a ≤ S2048x768.size a
  hwx1_0 : ∀ i : grid1.Coords, EltTy.bits .bf16 = 32 ∨ (Rect.block (s := S2048x768) S128x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x1024.size a ≤ S768x1024.size a
  hwx1_1 : ∀ i : grid1.Coords, EltTy.bits .bf16 = 32 ∨ (Rect.block (s := S768x1024) S768x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x10000.size a ≤ S1024x10000.size a
  hwx1_3 : ∀ i : grid1.Coords, EltTy.bits .bf16 = 32 ∨ (Rect.block (s := S1024x10000) S1024x10000.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10000.size a ≤ S1x10000.size a
  hwx1_4 : ∀ i : grid1.Coords, EltTy.bits .f32 = 32 ∨ (Rect.block (s := S1x10000) S1x10000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x10000.size a ≤ S2048x10000.size a
  hwx1_5 : ∀ i : grid1.Coords, EltTy.bits .f32 = 32 ∨ (Rect.block (s := S2048x10000) S128x10000.size (cc1_transform_5 i) (hinb1_5 i)).WholeWords (EltTy.packing .f32)

variable [Facts₀]

def dot_S512x400_S400x128_S512x128_1_0_0_1_n_n : DotDims S512x400 S400x128 S512x128 where
  lhsContracting := [1]
  rhsContracting := [0]
  lhsNonContracting := [0]
  rhsNonContracting := [1]
  lhsBatch := []
  rhsBatch := []
  wf := dot_S512x400_S400x128_S512x128_1_0_0_1_n_n_wf
def dot_S512x2000_S2000x256_S512x256_1_0_0_1_n_n : DotDims S512x2000 S2000x256 S512x256 where
  lhsContracting := [1]
  rhsContracting := [0]
  lhsNonContracting := [0]
  rhsNonContracting := [1]
  lhsBatch := []
  rhsBatch := []
  wf := dot_S512x2000_S2000x256_S512x256_1_0_0_1_n_n_wf
def dot_S128x768_S768x1024_S128x1024_1_0_0_1_n_n : DotDims S128x768 S768x1024 S128x1024 where
  lhsContracting := [1]
  rhsContracting := [0]
  lhsNonContracting := [0]
  rhsNonContracting := [1]
  lhsBatch := []
  rhsBatch := []
  wf := dot_S128x768_S768x1024_S128x1024_1_0_0_1_n_n_wf
def dot_S128x1024_S1024x10000_S128x10000_1_0_0_1_n_n : DotDims S128x1024 S1024x10000 S128x10000 where
  lhsContracting := [1]
  rhsContracting := [0]
  lhsNonContracting := [0]
  rhsNonContracting := [1]
  lhsBatch := []
  rhsBatch := []
  wf := dot_S128x1024_S1024x10000_S128x10000_1_0_0_1_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S512x7.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S400x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2000x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v3) S128x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S768x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x10000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x10000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S128x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x7 : Shape := ⟨2, ![2048, 7]⟩
abbrev S2048 : Shape := ⟨1, ![2048]⟩
abbrev S2048x8 : Shape := ⟨2, ![2048, 8]⟩
abbrev S2048x256 : Shape := ⟨2, ![2048, 256]⟩
abbrev S10000x128 : Shape := ⟨2, ![10000, 128]⟩
abbrev S50000x256 : Shape := ⟨2, ![50000, 256]⟩
abbrev S1024x647 : Shape := ⟨2, ![1024, 647]⟩
abbrev S1024 : Shape := ⟨1, ![1024]⟩
abbrev S10000x1024 : Shape := ⟨2, ![10000, 1024]⟩
abbrev S10000 : Shape := ⟨1, ![10000]⟩
abbrev S_ : Shape := ⟨0, ![]⟩
abbrev S2048x1 : Shape := ⟨2, ![2048, 1]⟩
abbrev S2048x128 : Shape := ⟨2, ![2048, 128]⟩
abbrev S2048x50000 : Shape := ⟨2, ![2048, 50000]⟩
abbrev S2048x8x1 : Shape := ⟨3, ![2048, 8, 1]⟩
abbrev S2048x8x2 : Shape := ⟨3, ![2048, 8, 2]⟩
abbrev S2048x647 : Shape := ⟨2, ![2048, 647]⟩
abbrev S647x1024 : Shape := ⟨2, ![647, 1024]⟩
abbrev S2048x1024 : Shape := ⟨2, ![2048, 1024]⟩
abbrev S1x1024 : Shape := ⟨2, ![1, 1024]⟩
abbrev S1024x10000 : Shape := ⟨2, ![1024, 10000]⟩
abbrev S2048x10000 : Shape := ⟨2, ![2048, 10000]⟩
abbrev S1x10000 : Shape := ⟨2, ![1, 10000]⟩

abbrev nBuf : Space → Nat
  | .hbm => 104
  | .vmem => 0
  | .smem => 0
  | _ => 0

abbrev bufTy : (tb : Table) → Fin (tcTables nBuf tb) → BufTy
  | .hbm, ⟨0, _⟩ => ⟨S2048x7, .f32⟩
  | .hbm, ⟨1, _⟩ => ⟨S2048, .i32⟩
  | .hbm, ⟨2, _⟩ => ⟨S2048x8, .i32⟩
  | .hbm, ⟨3, _⟩ => ⟨S2048x8, .i32⟩
  | .hbm, ⟨4, _⟩ => ⟨S2048x256, .f32⟩
  | .hbm, ⟨5, _⟩ => ⟨S2048x256, .f32⟩
  | .hbm, ⟨6, _⟩ => ⟨S10000x128, .f32⟩
  | .hbm, ⟨7, _⟩ => ⟨S50000x256, .f32⟩
  | .hbm, ⟨8, _⟩ => ⟨S1024x647, .f32⟩
  | .hbm, ⟨9, _⟩ => ⟨S1024, .f32⟩
  | .hbm, ⟨10, _⟩ => ⟨S10000x1024, .f32⟩
  | .hbm, ⟨11, _⟩ => ⟨S10000, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S2048x1, .i32⟩
  | .hbm, ⟨20, _⟩ => ⟨S2048x128, .f32⟩
  | .hbm, ⟨21, _⟩ => ⟨S2048, .i32⟩
  | .hbm, ⟨22, _⟩ => ⟨S2048x1, .i32⟩
  | .hbm, ⟨23, _⟩ => ⟨S_, .f32⟩
  | .hbm, ⟨24, _⟩ => ⟨S2048x50000, .f32⟩
  | .hbm, ⟨25, _⟩ => ⟨S_, .i32⟩
  | .hbm, ⟨26, _⟩ => ⟨S2048x1, .i32⟩
  | .hbm, ⟨27, _⟩ => ⟨S2048x1, .i1⟩
  | .hbm, ⟨28, _⟩ => ⟨S_, .i32⟩
  | .hbm, ⟨29, _⟩ => ⟨S2048x1, .i32⟩
  | .hbm, ⟨30, _⟩ => ⟨S2048x1, .i32⟩
  | .hbm, ⟨31, _⟩ => ⟨S2048x1, .i32⟩
  | .hbm, ⟨32, _⟩ => ⟨S_, .i32⟩
  | .hbm, ⟨33, _⟩ => ⟨S2048x8, .i32⟩
  | .hbm, ⟨34, _⟩ => ⟨S2048x8, .i1⟩
  | .hbm, ⟨35, _⟩ => ⟨S_, .i32⟩
  | .hbm, ⟨36, _⟩ => ⟨S2048x8, .i32⟩
  | .hbm, ⟨37, _⟩ => ⟨S2048x8, .i32⟩
  | .hbm, ⟨38, _⟩ => ⟨S2048x8, .i32⟩
  | .hbm, ⟨39, _⟩ => ⟨S2048x8, .i32⟩
  | .hbm, ⟨40, _⟩ => ⟨S2048x8x1, .i32⟩
  | .hbm, ⟨41, _⟩ => ⟨S2048x8x1, .i32⟩
  | .hbm, ⟨42, _⟩ => ⟨S2048x8x2, .i32⟩
  | .hbm, ⟨43, _⟩ => ⟨S_, .f32⟩
  | .hbm, ⟨44, _⟩ => ⟨S2048x8, .f32⟩
  | .hbm, ⟨45, _⟩ => ⟨S2048x50000, .f32⟩
  | .hbm, ⟨46, _⟩ => ⟨S2048, .i32⟩
  | .hbm, ⟨47, _⟩ => ⟨S2048x1, .i32⟩
  | .hbm, ⟨48, _⟩ => ⟨S_, .f32⟩
  | .hbm, ⟨49, _⟩ => ⟨S2048x50000, .f32⟩
  | .hbm, ⟨50, _⟩ => ⟨S_, .i32⟩
  | .hbm, ⟨51, _⟩ => ⟨S2048x1, .i32⟩
  | .hbm, ⟨52, _⟩ => ⟨S2048x1, .i1⟩
  | .hbm, ⟨53, _⟩ => ⟨S_, .i32⟩
  | .hbm, ⟨54, _⟩ => ⟨S2048x1, .i32⟩
  | .hbm, ⟨55, _⟩ => ⟨S2048x1, .i32⟩
  | .hbm, ⟨56, _⟩ => ⟨S2048x1, .i32⟩
  | .hbm, ⟨57, _⟩ => ⟨S_, .i32⟩
  | .hbm, ⟨58, _⟩ => ⟨S2048x8, .i32⟩
  | .hbm, ⟨59, _⟩ => ⟨S2048x8, .i1⟩
  | .hbm, ⟨60, _⟩ => ⟨S_, .i32⟩
  | .hbm, ⟨61, _⟩ => ⟨S2048x8, .i32⟩
  | .hbm, ⟨62, _⟩ => ⟨S2048x8, .i32⟩
  | .hbm, ⟨63, _⟩ => ⟨S2048x8, .i32⟩
  | .hbm, ⟨64, _⟩ => ⟨S2048x8, .i32⟩
  | .hbm, ⟨65, _⟩ => ⟨S2048x8x1, .i32⟩
  | .hbm, ⟨66, _⟩ => ⟨S2048x8x1, .i32⟩
  | .hbm, ⟨67, _⟩ => ⟨S2048x8x2, .i32⟩
  | .hbm, ⟨68, _⟩ => ⟨S_, .f32⟩
  | .hbm, ⟨69, _⟩ => ⟨S2048x8, .f32⟩
  | .hbm, ⟨70, _⟩ => ⟨S2048x50000, .f32⟩
  | .hbm, ⟨71, _⟩ => ⟨S2048x256, .f32⟩
  | .hbm, ⟨72, _⟩ => ⟨S2048x256, .f32⟩
  | .hbm, ⟨73, _⟩ => ⟨S2048x256, .f32⟩
  | .hbm, ⟨74, _⟩ => ⟨S2048x256, .f32⟩
  | .hbm, ⟨75, _⟩ => ⟨S2048x647, .f32⟩
  | .hbm, ⟨76, _⟩ => ⟨S647x1024, .f32⟩
  | .hbm, ⟨77, _⟩ => ⟨S2048x1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S2048x1024, .f32⟩
  | .hbm, ⟨83, _⟩ => ⟨S2048x1024, .f32⟩
  | .hbm, ⟨84, _⟩ => ⟨S1024x10000, .f32⟩
  | .hbm, ⟨85, _⟩ => ⟨S2048x10000, .f32⟩
  | .hbm, ⟨86, _⟩ => ⟨S1x10000, .f32⟩
  | .hbm, ⟨87, _⟩ => ⟨S2048x10000, .f32⟩
  | .hbm, ⟨88, _⟩ => ⟨S2048x10000, .f32⟩
  | .hbm, ⟨89, _⟩ => ⟨S_, .f32⟩
  | .hbm, ⟨90, _⟩ => ⟨S2048, .f32⟩
  | .hbm, ⟨91, _⟩ => ⟨S_, .f32⟩
  | .hbm, ⟨92, _⟩ => ⟨S2048, .f32⟩
  | .hbm, ⟨93, _⟩ => ⟨S2048, .f32⟩
  | .hbm, ⟨94, _⟩ => ⟨S2048x1, .f32⟩
  | .hbm, ⟨95, _⟩ => ⟨S2048x10000, .f32⟩
  | .hbm, ⟨96, _⟩ => ⟨S2048x10000, .f32⟩
  | .hbm, ⟨97, _⟩ => ⟨S2048x10000, .f32⟩
  | .hbm, ⟨98, _⟩ => ⟨S_, .f32⟩
  | .hbm, ⟨99, _⟩ => ⟨S2048, .f32⟩
  | .hbm, ⟨100, _⟩ => ⟨S2048x1, .f32⟩
  | .hbm, ⟨101, _⟩ => ⟨S2048x1, .f32⟩
  | .hbm, ⟨102, _⟩ => ⟨S2048x10000, .f32⟩
  | .hbm, ⟨103, _⟩ => ⟨S2048x10000, .f32⟩
  | _, _ => ⟨S2048x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call0_cst : Ref sig .tc := ⟨.hbm, 81, rfl⟩
abbrev main_call0_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call1_cst : Ref sig .tc := ⟨.hbm, 89, rfl⟩
abbrev main_call1_v0 : Ref sig .tc := ⟨.hbm, 90, rfl⟩
abbrev main_call1_cst_0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_cst_1 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_v61 : Ref sig .tc := ⟨.hbm, 103, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x50000 : S_.BroadcastsInDim S2048x50000 (![] : Fin 0 → Fin S2048x50000.rank)
  bcast_S_S2048x1 : S_.BroadcastsInDim S2048x1 (![] : Fin 0 → Fin S2048x1.rank)
  bcast_S_S2048x8 : S_.BroadcastsInDim S2048x8 (![] : Fin 0 → Fin S2048x8.rank)
  bcast_S2048x1_S2048x8_0_1 : S2048x1.BroadcastsInDim S2048x8 (![0, 1] : Fin 2 → Fin S2048x8.rank)
  bcast_S2048x8_S2048x8x1_0_1 : S2048x8.BroadcastsInDim S2048x8x1 (![0, 1] : Fin 2 → Fin S2048x8x1.rank)
  concatenates_S2048x8x1_S2048x8x1_S2048x8x2_d2 : Shape.Concatenates [S2048x8x1, S2048x8x1] S2048x8x2 2
  concatenates_S2048x128_S2048x256_S2048x256_S2048x7_S2048x647_d1 : Shape.Concatenates [S2048x128, S2048x256, S2048x256, S2048x7] S2048x647 1
  transposes_S1024x647_S647x1024_1_0 : S1024x647.Transposes [1, 0] S647x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  transposes_S10000x1024_S1024x10000_1_0 : S10000x1024.Transposes [1, 0] S1024x10000
  bcast_S10000_S1x10000_1 : S10000.BroadcastsInDim S1x10000 (![1] : Fin 1 → Fin S1x10000.rank)
  bcast_S1x10000_S2048x10000_0_1 : S1x10000.BroadcastsInDim S2048x10000 (![0, 1] : Fin 2 → Fin S2048x10000.rank)
  reducesTo_S2048x10000_S2048_d1 : S2048x10000.ReducesTo [1] S2048
  h_S_ : 0 < S_.numel
  bcast_S2048x1_S2048x10000_0_1 : S2048x1.BroadcastsInDim S2048x10000 (![0, 1] : Fin 2 → Fin S2048x10000.rank)
  gather_S10000x128_S2048x1_S2048x128_1_0_n_n_0_1_1128_wf : GatherDims.WF S10000x128 S2048x1 S2048x128 [1] [0] [] [0] [] 1 ![1, 128]
  scatter_S2048x50000_S2048x8x2_S2048x8_n_01_01_2_wf : ScatterDims.WF S2048x50000 S2048x8x2 S2048x8 [] [0, 1] [0, 1] 2
  dot_S2048x50000_S50000x256_S2048x256_1_0_0_1_n_n_wf : DotDims.WF S2048x50000 S50000x256 S2048x256 [1] [0] [0] [1] [] []
  dot_S2048x647_S647x1024_S2048x1024_1_0_0_1_n_n_wf : DotDims.WF S2048x647 S647x1024 S2048x1024 [1] [0] [0] [1] [] []
  dot_S2048x1024_S1024x10000_S2048x10000_1_0_0_1_n_n_wf : DotDims.WF S2048x1024 S1024x10000 S2048x10000 [1] [0] [0] [1] [] []

variable [Facts₀]

def gather_S10000x128_S2048x1_S2048x128_1_0_n_n_0_1_1128 : GatherDims S10000x128 S2048x1 S2048x128 where
  offsetDims := [1]
  collapsedSliceDims := [0]
  operandBatchingDims := []
  startIndicesBatchingDims := []
  startIndexMap := [0]
  indexVectorDim := 1
  sliceSizes := ![1, 128]
  wf := gather_S10000x128_S2048x1_S2048x128_1_0_n_n_0_1_1128_wf
def scatter_S2048x50000_S2048x8x2_S2048x8_n_01_01_2 : ScatterDims S2048x50000 S2048x8x2 S2048x8 where
  updateWindowDims := []
  insertedWindowDims := [0, 1]
  scatterDimsToOperandDims := [0, 1]
  indexVectorDim := 2
  wf := scatter_S2048x50000_S2048x8x2_S2048x8_n_01_01_2_wf
def dot_S2048x50000_S50000x256_S2048x256_1_0_0_1_n_n : DotDims S2048x50000 S50000x256 S2048x256 where
  lhsContracting := [1]
  rhsContracting := [0]
  lhsNonContracting := [0]
  rhsNonContracting := [1]
  lhsBatch := []
  rhsBatch := []
  wf := dot_S2048x50000_S50000x256_S2048x256_1_0_0_1_n_n_wf
def dot_S2048x647_S647x1024_S2048x1024_1_0_0_1_n_n : DotDims S2048x647 S647x1024 S2048x1024 where
  lhsContracting := [1]
  rhsContracting := [0]
  lhsNonContracting := [0]
  rhsNonContracting := [1]
  lhsBatch := []
  rhsBatch := []
  wf := dot_S2048x647_S647x1024_S2048x1024_1_0_0_1_n_n_wf
def dot_S2048x1024_S1024x10000_S2048x10000_1_0_0_1_n_n : DotDims S2048x1024 S1024x10000 S2048x10000 where
  lhsContracting := [1]
  rhsContracting := [0]
  lhsNonContracting := [0]
  rhsNonContracting := [1]
  lhsBatch := []
  rhsBatch := []
  wf := dot_S2048x1024_S1024x10000_S2048x10000_1_0_0_1_n_n_wf

class Facts : Prop extends Facts₀ where

variable [Facts]
-- ==== Proof.K.R0Base.lean ====
import proofs.«408609_j52080773431571_2_alg».proof.Proof.Gen.Kernel.Launch
import proofs.«408609_j52080773431571_2_alg».proof.Proof.Gen.Kernel.Skeleton
import proofs.«408609_j52080773431571_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 := by decide +kernel
abbrev cond0_1 (i : grid0.Coords) : Prop := k0_cond2 i = 1#1
theorem hcond0_1 : ∀ t : Fin cfg0.N, cond0_1 (grid0.coords t) ↔ t.val % 25 = 24 := by decide +kernel

theorem liveAt0 : ∀ (w : Fin cfg0.W) (t : Fin cfg0.N), w ≠ 8 → cfg0.idle w (grid0.coords t) = false := by decide +kernel
theorem idleAt0_8 : ∀ t : Fin cfg0.N, ¬cond0_1 (grid0.coords t) → cfg0.idle 8 (grid0.coords t) = true ∧ (cfg0.win 8).flush t = false := by decide +kernel
theorem liveAt0_8 : ∀ t : Fin cfg0.N, cond0_1 (grid0.coords t) → cfg0.idle 8 (grid0.coords t) = false := by decide +kernel

abbrev VO0_8 : View sig .tc .vmem S512x768 .bf16 := (Memref.whole cc0_stg8_0 : Memref sig .tc .vmem S512x768 .bf16).view
abbrev ms0_0 (t : Fin cfg0.N) : Memref sig .tc .vmem S512x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x8 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x7 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x768 .bf16 := win0_8.stage (cfg0.slots t 8)
abbrev hs0_8 (t : Fin cfg0.N) : (ms0_8 t).IsWhole := hstage0_8 ((cfg0.slots t 8).cast nbuf0_8)
abbrev scM0_0 : Memref sig .tc .vmem S512x128 .f32 := Memref.whole cc0_scratch0
abbrev scM0_1 : Memref sig .tc .vmem S512x256 .f32 := Memref.whole cc0_scratch1
abbrev scM0_2 : Memref sig .tc .vmem S512x256 .f32 := Memref.whole cc0_scratch2
abbrev VS0_0 : View sig .tc .vmem S512x128 .f32 := scM0_0.view
abbrev VS0_1 : View sig .tc .vmem S512x256 .f32 := scM0_1.view
abbrev VS0_2 : View sig .tc .vmem S512x256 .f32 := scM0_2.view

abbrev otherStg (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherStg c) ∗ (∃ r, prngReg c r)) := by
  unfold Pipeline.ΦA; rw [scopedRest0_eq]; simp only [scM0_0, scM0_1, scM0_2, owns_whole]; try rfl

/-- A whole memref that reads `x` is its buffer at the contents reading `x`: reading is a bijection there. -/
theorem owns_unread {s : Shape} {e : EltTy} (c : Dev nD) {m : Memref sig .tc .vmem s e} (h : m.IsWhole) (x : Vec F s e) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

/-- Pieces that cover a buffer fix what it reads, whatever it held before. -/
theorem owns_cover {s : Shape} {e : EltTy} (c : Dev nD) (m : Memref sig .tc .vmem s e) (v : View sig .tc .vmem s e)
    (L : List (View.Piece (Elt F) s e)) (h : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (v.read (Elt F) (v.writes (Elt F) v.junk L)) := by
  unfold owns; iintro ⟨%f, H⟩; iexists (m.view.writes (Elt F) f L); isplitr; · ipureintro; exact View.read_writes_of_cover _ _ _ _ _ h
  iexact H

end Cert.Kernel.Fr

end
-- ==== Proof.K.R0RunA.lean ====
import proofs.«408609_j52080773431571_2_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_A (c : Dev nD) (i : grid0.Coords) (arg2 : Memref sig .tc .vmem S512x1 .i32) (harg2 : arg2.IsWhole) (arg3 : Memref sig .tc .vmem S512x8 .i32) (harg3 : arg3.IsWhole) (arg4 : Memref sig .tc .vmem S512x8 .i32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x7 .f32) (harg7 : arg7.IsWhole) (arg8 : Memref sig .tc .vmem S400x128 .bf16) (harg8 : arg8.IsWhole) (arg9 : Memref sig .tc .vmem S2000x256 .bf16) (harg9 : arg9.IsWhole) (arg10 : Memref sig .tc .vmem S512x768 .bf16) (harg10 : arg10.IsWhole) (arg11 : Memref sig .tc .vmem S512x128 .f32) (harg11 : arg11.IsWhole) (arg12 : Memref sig .tc .vmem S512x256 .f32) (harg12 : arg12.IsWhole) (arg13 : Memref sig .tc .vmem S512x256 .f32) (harg13 : arg13.IsWhole) (hc0 : cond0_0 i) (hc1 : ¬cond0_1 i)
    (x0 : Vec F S512x1 .i32) (x1 x2 : Vec F S512x8 .i32) (x3 x4 : Vec F S512x256 .f32) (x5 : Vec F S512x7 .f32) (x6 : Vec F S400x128 .bf16) (x7 : Vec F S2000x256 .bf16) :
    Σ' (L8 : List (View.Piece (Elt F) S512x768 .bf16)) (LS0 : List (View.Piece (Elt F) S512x128 .f32)) (LS1 : List (View.Piece (Elt F) S512x256 .f32)),
      { LS2 : List (View.Piece (Elt F) S512x256 .f32) // ∀ (xi8 : Vec F S512x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_embed_kernel i arg2 harg2 arg3 harg3 arg4 harg4 arg5 harg5 arg6 harg6 arg7 harg7 arg8 harg8 arg9 harg9 arg10 harg10 arg11 harg11 arg12 harg12 arg13 harg13) K } := by
  refine ⟨[], ?_, ?_, ⟨?_, fun xi8 E K => ?run⟩⟩
  case run =>
    simp only [cc0_embed_kernel_eq_skeleton]; unfold cc0_embed_kernel_skel
    rw [owns_unread c harg2, owns_unread c harg3, owns_unread c harg4, owns_unread c harg5, owns_unread c harg6, owns_unread c harg7, owns_unread c harg8, owns_unread c harg9, owns_unread c harg10]
    unfold owns
    iintro ⟨H0, H1, H2, H3, H4, H5, H6, H7, H8, ⟨%ds0, %fs0, -, HS0⟩, ⟨%ds1, %fs1, -, HS1⟩, ⟨%ds2, %fs2, -, HS2⟩, Hk⟩
    sl_exec (disch := first | exact hc0 | exact hc1)
    sl_step
    iapply Hk
    iframe H0 H1 H2 H3 H4 H5 H6 H7 H8
    isplitl [HS0]; · iexists _; iexact HS0
    isplitl [HS1]; · iexists _; iexact HS1
    iexists _; iexact HS2

end Cert.Kernel.Fr

end
-- ==== Proof.K.R0RunB.lean ====
import proofs.«408609_j52080773431571_2_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_B (c : Dev nD) (i : grid0.Coords) (arg2 : Memref sig .tc .vmem S512x1 .i32) (harg2 : arg2.IsWhole) (arg3 : Memref sig .tc .vmem S512x8 .i32) (harg3 : arg3.IsWhole) (arg4 : Memref sig .tc .vmem S512x8 .i32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x7 .f32) (harg7 : arg7.IsWhole) (arg8 : Memref sig .tc .vmem S400x128 .bf16) (harg8 : arg8.IsWhole) (arg9 : Memref sig .tc .vmem S2000x256 .bf16) (harg9 : arg9.IsWhole) (arg10 : Memref sig .tc .vmem S512x768 .bf16) (harg10 : arg10.IsWhole) (arg11 : Memref sig .tc .vmem S512x128 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : ¬cond0_1 i)
    (x0 : Vec F S512x1 .i32) (x1 x2 : Vec F S512x8 .i32) (x3 x4 : Vec F S512x256 .f32) (x5 : Vec F S512x7 .f32) (x6 : Vec F S400x128 .bf16) (x7 : Vec F S2000x256 .bf16) (xs0 : Vec F S512x128 .f32) (xs1 xs2 : Vec F S512x256 .f32) :
    Σ' (L8 : List (View.Piece (Elt F) S512x768 .bf16)) (LS0 : List (View.Piece (Elt F) S512x128 .f32)) (LS1 : List (View.Piece (Elt F) S512x256 .f32)),
      { LS2 : List (View.Piece (Elt F) S512x256 .f32) // ∀ (xi8 : Vec F S512x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_embed_kernel i arg2 harg2 arg3 harg3 arg4 harg4 arg5 harg5 arg6 harg6 arg7 harg7 arg8 harg8 arg9 harg9 arg10 harg10 arg11 harg11 arg12 harg12 arg13 harg13) K } := by
  refine ⟨[], ?_, ?_, ⟨?_, fun xi8 E K => ?run⟩⟩
  case run =>
    simp only [cc0_embed_kernel_eq_skeleton]; unfold cc0_embed_kernel_skel
    rw [owns_unread c harg2, owns_unread c harg3, owns_unread c harg4, owns_unread c harg5, owns_unread c harg6, owns_unread c harg7, owns_unread c harg8, owns_unread c harg9, owns_unread c harg10, owns_unread c harg11, owns_unread c harg12, owns_unread c harg13]
    iintro ⟨H0, H1, H2, H3, H4, H5, H6, H7, H8, HS0, HS1, HS2, Hk⟩
    sl_exec (disch := first | exact hc0 | exact hc1)
    sl_step
    iapply Hk
    iframe H0 H1 H2 H3 H4 H5 H6 H7 H8
    isplitl [HS0]; · iexists _; iexact HS0
    isplitl [HS1]; · iexists _; iexact HS1
    iexists _; iexact HS2

end Cert.Kernel.Fr

end
-- ==== Proof.K.R0RunC.lean ====
import proofs.«408609_j52080773431571_2_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_C (c : Dev nD) (i : grid0.Coords) (arg2 : Memref sig .tc .vmem S512x1 .i32) (harg2 : arg2.IsWhole) (arg3 : Memref sig .tc .vmem S512x8 .i32) (harg3 : arg3.IsWhole) (arg4 : Memref sig .tc .vmem S512x8 .i32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x7 .f32) (harg7 : arg7.IsWhole) (arg8 : Memref sig .tc .vmem S400x128 .bf16) (harg8 : arg8.IsWhole) (arg9 : Memref sig .tc .vmem S2000x256 .bf16) (harg9 : arg9.IsWhole) (arg10 : Memref sig .tc .vmem S512x768 .bf16) (harg10 : arg10.IsWhole) (arg11 : Memref sig .tc .vmem S512x128 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : cond0_1 i)
    (x0 : Vec F S512x1 .i32) (x1 x2 : Vec F S512x8 .i32) (x3 x4 : Vec F S512x256 .f32) (x5 : Vec F S512x7 .f32) (x6 : Vec F S400x128 .bf16) (x7 : Vec F S2000x256 .bf16) (xs0 : Vec F S512x128 .f32) (xs1 xs2 : Vec F S512x256 .f32) :
    Σ' (L8 : List (View.Piece (Elt F) S512x768 .bf16)) (LS0 : List (View.Piece (Elt F) S512x128 .f32)) (LS1 : List (View.Piece (Elt F) S512x256 .f32)),
      { LS2 : List (View.Piece (Elt F) S512x256 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_embed_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ⟨?_, fun E K => ?run⟩⟩
  case run =>
    simp only [cc0_embed_kernel_eq_skeleton]; unfold cc0_embed_kernel_skel
    rw [owns_unread c harg2, owns_unread c harg3, owns_unread c harg4, owns_unread c harg5, owns_unread c harg6, owns_unread c harg7, owns_unread c harg8, owns_unread c harg9, owns_unread c harg11, owns_unread c harg12, owns_unread c harg13]
    unfold owns
    iintro ⟨H0, H1, H2, H3, H4, H5, H6, H7, ⟨%d8, %f8, -, H8⟩, HS0, HS1, HS2, Hk⟩
    sl_exec (disch := first | exact hc0 | exact hc1)
    sl_step
    iapply Hk
    iframe H0 H1 H2 H3 H4 H5 H6 H7
    isplitl [H8]; · iexists _; iexact H8
    isplitl [HS0]; · iexists _; iexact HS0
    isplitl [HS1]; · iexists _; iexact HS1
    iexists _; iexact HS2

end Cert.Kernel.Fr

end
-- ==== Proof.K.R0Frame.lean ====
import proofs.«408609_j52080773431571_2_alg».proof.Proof.K.R0RunA
import proofs.«408609_j52080773431571_2_alg».proof.Proof.K.R0RunB
import proofs.«408609_j52080773431571_2_alg».proof.Proof.K.R0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Pieces

variable (c : Dev nD) (i : grid0.Coords)
  (arg2 : Memref sig .tc .vmem S512x1 .i32) (harg2 : arg2.IsWhole) (arg3 : Memref sig .tc .vmem S512x8 .i32) (harg3 : arg3.IsWhole)
  (arg4 : Memref sig .tc .vmem S512x8 .i32) (harg4 : arg4.IsWhole) (arg5 : Memref sig .tc .vmem S512x256 .f32) (harg5 : arg5.IsWhole)
  (arg6 : Memref sig .tc .vmem S512x256 .f32) (harg6 : arg6.IsWhole) (arg7 : Memref sig .tc .vmem S512x7 .f32) (harg7 : arg7.IsWhole)
  (arg8 : Memref sig .tc .vmem S400x128 .bf16) (harg8 : arg8.IsWhole) (arg9 : Memref sig .tc .vmem S2000x256 .bf16) (harg9 : arg9.IsWhole)
  (arg10 : Memref sig .tc .vmem S512x768 .bf16) (harg10 : arg10.IsWhole) (arg11 : Memref sig .tc .vmem S512x128 .f32) (harg11 : arg11.IsWhole)
  (arg12 : Memref sig .tc .vmem S512x256 .f32) (harg12 : arg12.IsWhole) (arg13 : Memref sig .tc .vmem S512x256 .f32) (harg13 : arg13.IsWhole)

local notation:max "run0 " f:max => f c i arg2 harg2 arg3 harg3 arg4 harg4 arg5 harg5 arg6 harg6 arg7 harg7 arg8 harg8 arg9 harg9 arg10 harg10 arg11 harg11 arg12 harg12 arg13 harg13

section CaseA

variable (hc0 : cond0_0 i) (hc1 : ¬cond0_1 i)
  (x0 : Vec F S512x1 .i32) (x1 x2 : Vec F S512x8 .i32) (x3 x4 : Vec F S512x256 .f32) (x5 : Vec F S512x7 .f32)
  (x6 : Vec F S400x128 .bf16) (x7 : Vec F S2000x256 .bf16)

local notation "runA" => run0 kernelRun0_A hc0 hc1 x0 x1 x2 x3 x4 x5 x6 x7

def out0_A_8 : Vec F S512x768 .bf16 :=
  VO0_8.read (Elt F) (VO0_8.writes (Elt F) VO0_8.junk (runA).1)

theorem scover0_A_0 (y : S512x128.Idx) : ∃ pc ∈ (runA).2.1, y ∈ pc.1.set :=
  View.cover_of_tiledL (runA).2.1 S512x128.size (by sl_kernel_rfl) y

def sout0_A_0 : Vec F S512x128 .f32 :=
  VS0_0.read (Elt F) (VS0_0.writes (Elt F) VS0_0.junk (runA).2.1)

theorem scover0_A_1 (y : S512x256.Idx) : ∃ pc ∈ (runA).2.2.1, y ∈ pc.1.set :=
  View.cover_of_tiledL (runA).2.2.1 S512x256.size (by sl_kernel_rfl) y

def sout0_A_1 : Vec F S512x256 .f32 :=
  VS0_1.read (Elt F) (VS0_1.writes (Elt F) VS0_1.junk (runA).2.2.1)

theorem scover0_A_2 (y : S512x256.Idx) : ∃ pc ∈ (runA).2.2.2.1, y ∈ pc.1.set :=
  View.cover_of_tiledL (runA).2.2.2.1 S512x256.size (by sl_kernel_rfl) y

def sout0_A_2 : Vec F S512x256 .f32 :=
  VS0_2.read (Elt F) (VS0_2.writes (Elt F) VS0_2.junk (runA).2.2.2.1)

end CaseA

section CaseB

variable (hc0 : ¬cond0_0 i) (hc1 : ¬cond0_1 i)
  (x0 : Vec F S512x1 .i32) (x1 x2 : Vec F S512x8 .i32) (x3 x4 : Vec F S512x256 .f32) (x5 : Vec F S512x7 .f32)
  (x6 : Vec F S400x128 .bf16) (x7 : Vec F S2000x256 .bf16)
  (xs0 : Vec F S512x128 .f32) (xs1 xs2 : Vec F S512x256 .f32)

local notation "runB" => run0 kernelRun0_B hc0 hc1 x0 x1 x2 x3 x4 x5 x6 x7 xs0 xs1 xs2

def out0_B_8 : Vec F S512x768 .bf16 :=
  VO0_8.read (Elt F) (VO0_8.writes (Elt F) VO0_8.junk (runB).1)

theorem scover0_B_0 (y : S512x128.Idx) : ∃ pc ∈ (runB).2.1, y ∈ pc.1.set :=
  View.cover_of_tiledL (runB).2.1 S512x128.size (by sl_kernel_rfl) y

def sout0_B_0 : Vec F S512x128 .f32 :=
  VS0_0.read (Elt F) (VS0_0.writes (Elt F) VS0_0.junk (runB).2.1)

theorem scover0_B_1 (y : S512x256.Idx) : ∃ pc ∈ (runB).2.2.1, y ∈ pc.1.set :=
  View.cover_of_tiledL (runB).2.2.1 S512x256.size (by sl_kernel_rfl) y

def sout0_B_1 : Vec F S512x256 .f32 :=
  VS0_1.read (Elt F) (VS0_1.writes (Elt F) VS0_1.junk (runB).2.2.1)

theorem scover0_B_2 (y : S512x256.Idx) : ∃ pc ∈ (runB).2.2.2.1, y ∈ pc.1.set :=
  View.cover_of_tiledL (runB).2.2.2.1 S512x256.size (by sl_kernel_rfl) y

def sout0_B_2 : Vec F S512x256 .f32 :=
  VS0_2.read (Elt F) (VS0_2.writes (Elt F) VS0_2.junk (runB).2.2.2.1)

end CaseB

section CaseC

variable (hc0 : ¬cond0_0 i) (hc1 : cond0_1 i)
  (x0 : Vec F S512x1 .i32) (x1 x2 : Vec F S512x8 .i32) (x3 x4 : Vec F S512x256 .f32) (x5 : Vec F S512x7 .f32)
  (x6 : Vec F S400x128 .bf16) (x7 : Vec F S2000x256 .bf16)
  (xs0 : Vec F S512x128 .f32) (xs1 xs2 : Vec F S512x256 .f32)

local notation "runC" => run0 kernelRun0_C hc0 hc1 x0 x1 x2 x3 x4 x5 x6 x7 xs0 xs1 xs2

theorem cover0_C_8 (y : S512x768.Idx) : ∃ pc ∈ (runC).1, y ∈ pc.1.set :=
  View.cover_of_tiledBy (runC).1 ![512, 1] (by sl_kernel_rfl) y

def out0_C_8 : Vec F S512x768 .bf16 :=
  VO0_8.read (Elt F) (VO0_8.writes (Elt F) VO0_8.junk (runC).1)

theorem scover0_C_0 (y : S512x128.Idx) : ∃ pc ∈ (runC).2.1, y ∈ pc.1.set :=
  View.cover_of_tiledL (runC).2.1 S512x128.size (by sl_kernel_rfl) y

def sout0_C_0 : Vec F S512x128 .f32 :=
  VS0_0.read (Elt F) (VS0_0.writes (Elt F) VS0_0.junk (runC).2.1)

theorem scover0_C_1 (y : S512x256.Idx) : ∃ pc ∈ (runC).2.2.1, y ∈ pc.1.set :=
  View.cover_of_tiledL (runC).2.2.1 S512x256.size (by sl_kernel_rfl) y

def sout0_C_1 : Vec F S512x256 .f32 :=
  VS0_1.read (Elt F) (VS0_1.writes (Elt F) VS0_1.junk (runC).2.2.1)

theorem scover0_C_2 (y : S512x256.Idx) : ∃ pc ∈ (runC).2.2.2.1, y ∈ pc.1.set :=
  View.cover_of_tiledL (runC).2.2.2.1 S512x256.size (by sl_kernel_rfl) y

def sout0_C_2 : Vec F S512x256 .f32 :=
  VS0_2.read (Elt F) (VS0_2.writes (Elt F) VS0_2.junk (runC).2.2.2.1)

end CaseC

end Pieces

section AtPoint

variable (c : Dev nD) (t : Fin cfg0.N)

local notation:max "at0 " f:max h0:max h1:max => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h0 h1 (iblk0 V c 0 t) (iblk0 V c 1 t) (iblk0 V c 2 t) (iblk0 V c 3 t) (iblk0 V c 4 t) (iblk0 V c 5 t) (iblk0 V c 6 t) (iblk0 V c 7 t)

section CaseA
variable (hc0 : cond0_0 (grid0.coords t)) (hc1 : ¬cond0_1 (grid0.coords t))

def ptA : Vec F S512x768 .bf16 × Vec F S512x128 .f32 × Vec F S512x256 .f32 × Vec F S512x256 .f32 :=
  (at0 out0_A_8 hc0 hc1, at0 sout0_A_0 hc0 hc1, at0 sout0_A_1 hc0 hc1, at0 sout0_A_2 hc0 hc1)
end CaseA

section CaseB
variable (hc0 : ¬cond0_0 (grid0.coords t)) (hc1 : ¬cond0_1 (grid0.coords t))
  (a0 : Vec F S512x128 .f32) (a1 a2 : Vec F S512x256 .f32)

def ptB : Vec F S512x768 .bf16 × Vec F S512x128 .f32 × Vec F S512x256 .f32 × Vec F S512x256 .f32 :=
  (at0 out0_B_8 hc0 hc1 a0 a1 a2, at0 sout0_B_0 hc0 hc1 a0 a1 a2, at0 sout0_B_1 hc0 hc1 a0 a1 a2, at0 sout0_B_2 hc0 hc1 a0 a1 a2)
end CaseB

section CaseC
variable (hc0 : ¬cond0_0 (grid0.coords t)) (hc1 : cond0_1 (grid0.coords t))
  (a0 : Vec F S512x128 .f32) (a1 a2 : Vec F S512x256 .f32)

def ptC : Vec F S512x768 .bf16 × Vec F S512x128 .f32 × Vec F S512x256 .f32 × Vec F S512x256 .f32 :=
  (at0 out0_C_8 hc0 hc1 a0 a1 a2, at0 sout0_C_0 hc0 hc1 a0 a1 a2, at0 sout0_C_1 hc0 hc1 a0 a1 a2, at0 sout0_C_2 hc0 hc1 a0 a1 a2)
end CaseC

end AtPoint

def outsAt0 (c : Dev nD) : (n : ℕ) → n < cfg0.N → Vec F S512x768 .bf16 × Vec F S512x128 .f32 × Vec F S512x256 .f32 × Vec F S512x256 .f32
  | 0, hn => ptA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 25 = 0 then
      if h1 : (n + 1) % 25 = 24 then
        False.elim (by omega)
      else
        ptA V c ⟨n + 1, hn⟩ ((hcond0_0 ⟨n + 1, hn⟩).mpr h0) (fun h => h1 ((hcond0_1 ⟨n + 1, hn⟩).mp h))
    else
      if h1 : (n + 1) % 25 = 24 then
        ptC V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2
      else
        ptB V c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2

theorem outsAt0_A (c : Dev nD) (t : Fin cfg0.N) (h0 : t.val % 25 = 0) (h1 : ¬t.val % 25 = 24) :
    outsAt0 V c t.val t.isLt = ptA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = ptB V c t (fun h => h0 ((hcond0_0 t).mp h)) (fun h => h1 ((hcond0_1 t).mp h))
      (outsAt0 V c (t.val - 1) (Nat.lt_of_le_of_lt (Nat.sub_le _ _) t.isLt)).2.1
      (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 25 = 0) (h1 : t.val % 25 = 24) :
    outsAt0 V c t.val t.isLt = ptC V c t (fun h => h0 ((hcond0_0 t).mp h)) ((hcond0_1 t).mpr h1)
      (outsAt0 V c (t.val - 1) (Nat.lt_of_le_of_lt (Nat.sub_le _ _) t.isLt)).2.1
      (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

abbrev PhiAt (c : Dev nD) (p : Vec F S512x768 .bf16 × Vec F S512x128 .f32 × Vec F S512x256 .f32 × Vec F S512x256 .f32) : sProp 𝕄 :=
  iprop(iprop(owns (c : Thread nD τ) scM0_0 fullShare p.2.1 ∗ owns (c : Thread nD τ) scM0_1 fullShare p.2.2.1 ∗ owns (c : Thread nD τ) scM0_2 fullShare p.2.2.2 ∗ otherStg c) ∗ (∃ r, prngReg c r))

/-- Before the first point the accumulators hold anything; afterwards what the point before left. -/
def PhiS (c : Dev nD) : (n : ℕ) → n ≤ cfg0.N → sProp 𝕄
  | 0, _ => Pipeline.ΦA spec0 c
  | n + 1, hn => PhiAt c (outsAt0 V c n hn)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := rfl

/-- Before a point that is not the first: the accumulators at what the point before left. -/
theorem Phi_pos (c : Dev nD) (t : Fin cfg0.N) (hz : t.val ≠ 0) :
    (dat0 V c).Φ t.castSucc = PhiAt c (outsAt0 V c (t.val - 1) (Nat.lt_of_le_of_lt (Nat.sub_le _ _) t.isLt)) := by
  obtain ⟨n, hn⟩ := t
  cases n with
  | zero => exact absurd rfl hz
  | succ n => rfl

theorem after0_8 (c : Dev nD) (t : Fin cfg0.N) : (dat0 V c).after 8 t = (outsAt0 V c t.val t.isLt).1 := rfl

theorem before0 (c : Dev nD) (t : Fin cfg0.N) : ∀ w : Fin cfg0.W, w ≠ 8 → ∀ d, (dat0 V c).before w t d = (dat0 V c).after w t
  | ⟨8, _⟩, h, _ => absurd rfl h
  | ⟨0, _⟩, _, d | ⟨1, _⟩, _, d | ⟨2, _⟩, _, d | ⟨3, _⟩, _, d | ⟨4, _⟩, _, d | ⟨5, _⟩, _, d | ⟨6, _⟩, _, d | ⟨7, _⟩, _, d =>
    ((dat0 V c).before_in_eq_fetched _ rfl (fun _ => rfl) (fun _ _ _ => rfl) (fun _ => rfl) t d).trans rfl

theorem leaves0 (c : Dev nD) (t : Fin cfg0.N) (w : Fin cfg0.W) (hw : w ≠ 8) :
    (dat0 V c).leavesExact w t = owns (c : Thread nD τ) ((cfg0.win w).stage (cfg0.slots t w)) fullShare ((dat0 V c).after w t) := by
  unfold Dat.leavesExact; rw [liveAt0 w t hw]

/-- At any point the invariant entails the entry one: the accumulators' named contents are forgotten. -/
theorem Phi_fwd (c : Dev nD) (t : Fin (cfg0.N + 1)) : (dat0 V c).Φ t ⊢ Pipeline.ΦA spec0 c := by
  obtain ⟨n, hn⟩ := t
  cases n with
  | zero => exact Entails.refl _
  | succ n =>
    rw [PhiA0_eq]; show (PhiAt c _ : sProp 𝕄) ⊢ _; unfold PhiAt
    iintro ⟨⟨HS0, HS1, HS2, HR⟩, Hg⟩
    iframe HR Hg
    isplitl [HS0]; · iexists _; iexact HS0
    isplitl [HS1]; · iexists _; iexact HS1
    iexists _; iexact HS2

def bodyPre (c : Dev nD) (t : Fin cfg0.N) : sProp 𝕄 :=
  iprop((dat0 V c).Φ t.castSucc ∗ (dat0 V c).owesAt () t.castSucc
    ∗ bigSep Finset.univ fun w : Fin cfg0.W => iprop(∃ d, owns (c : Thread nD τ) ((cfg0.win w).stage (cfg0.slots t w)) fullShare ((dat0 V c).before w t d)))

def bodyPost (c : Dev nD) (t : Fin cfg0.N) : sProp 𝕄 :=
  iprop((dat0 V c).Φ t.succ ∗ (dat0 V c).owesAt () t.succ ∗ bigSep Finset.univ fun w => (dat0 V c).leavesExact w t)

set_option maxHeartbeats 4800000 in
/-- The case `t.val % 25` selects applies: the accumulators come back at what their covering pieces fix, all else passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [bigSep_W0, bigSep_W0]
  simp (disch := decide) only [before0 V c t, leaves0 V c t]
  rw [show (dat0 V c).owesAt () t.succ = (dat0 V c).owesAt () t.castSucc from rfl,
    show (dat0 V c).Φ t.succ = PhiAt c (outsAt0 V c t.val t.isLt) from rfl]
  by_cases h1 : t.val % 25 = 24
  · have h0 : ¬t.val % 25 = 0 := by omega
    have hz : t.val ≠ 0 := by omega
    have c0 := mt (hcond0_0 t).mp h0
    have c1 := (hcond0_1 t).mpr h1
    rw [show (dat0 V c).leavesExact 8 t = owns (c : Thread nD τ) (ms0_8 t) fullShare ((dat0 V c).after 8 t) from by
      unfold Dat.leavesExact; rw [liveAt0_8 t c1], after0_8, outsAt0_C V c t h0 h1, Phi_pos V c t hz]
    unfold PhiAt ptC out0_C_8 sout0_C_0 sout0_C_1 sout0_C_2; (try dsimp only)
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_C c (grid0.coords t) _ _ _ _ _ _ _ _ _ _ _ _ _ _ _ _ _ _ _ _ _ _ _ _ c0 c1 _ _ _ _ _ _ _ _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 HR Hg]
    · isplitl [HS0 HS1 HS2 HR]
      · isplitl [HS0]; · iapply owns_cover c _ _ _ (fun _ => scover0_C_0 ..); iexact HS0
        isplitl [HS1]; · iapply owns_cover c _ _ _ (fun _ => scover0_C_1 ..); iexact HS1
        isplitl [HS2]; · iapply owns_cover c _ _ _ (fun _ => scover0_C_2 ..); iexact HS2
        iexact HR
      iexact Hg
    iframe Ho H0 H1 H2 H3 H4 H5 H6 H7
    iapply owns_cover c _ _ _ (fun _ => cover0_C_8 ..); iexact H8
  · have c1 := mt (hcond0_1 t).mp h1
    rw [Dat.leavesExact_idle (dat0 V c) 8 t (idleAt0_8 t c1).1 (idleAt0_8 t c1).2]
    by_cases h0 : t.val % 25 = 0
    · have c0 := (hcond0_0 t).mpr h0
      rw [outsAt0_A V c t h0 h1]
      unfold PhiAt ptA sout0_A_0 sout0_A_1 sout0_A_2; (try dsimp only)
      refine (sep_mono_left (Phi_fwd V c _)).trans ?_
      rw [PhiA0_eq]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ c0 c1 _ _ _ _ _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 HR Hg]
      · isplitl [HS0 HS1 HS2 HR]
        · isplitl [HS0]; · iapply owns_cover c _ _ _ (fun _ => scover0_A_0 ..); iexact HS0
          isplitl [HS1]; · iapply owns_cover c _ _ _ (fun _ => scover0_A_1 ..); iexact HS1
          isplitl [HS2]; · iapply owns_cover c _ _ _ (fun _ => scover0_A_2 ..); iexact HS2
          iexact HR
        iexact Hg
      iframe Ho H0 H1 H2 H3 H4 H5 H6 H7
      iexists _; iexact H8
    · have hz : t.val ≠ 0 := fun hz => h0 (by rw [hz])
      have c0 := mt (hcond0_0 t).mp h0
      rw [outsAt0_B V c t h0 h1, Phi_pos V c t hz]
      unfold PhiAt ptB sout0_B_0 sout0_B_1 sout0_B_2; (try dsimp only)
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ c0 c1 _ _ _ _ _ _ _ _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 HR Hg]
      · isplitl [HS0 HS1 HS2 HR]
        · isplitl [HS0]; · iapply owns_cover c _ _ _ (fun _ => scover0_B_0 ..); iexact HS0
          isplitl [HS1]; · iapply owns_cover c _ _ _ (fun _ => scover0_B_1 ..); iexact HS1
          isplitl [HS2]; · iapply owns_cover c _ _ _ (fun _ => scover0_B_2 ..); iexact HS2
          iexact HR
        iexact Hg
      iframe Ho H0 H1 H2 H3 H4 H5 H6 H7
      iexists _; iexact H8

theorem body_obligation0 (c : Dev nD) : BodyObligation (dat0 (F := F) V c) (defs₀ (F := F)) Variants.none () Set.univ := sound_body V c

theorem hin0 (c : Dev nD) : Pipeline.ΦA spec0 c ⊢ (dat0 V c).Φ 0 := Entails.refl _

theorem hout0 (c : Dev nD) : (dat0 V c).Φ (Fin.last cfg0.N) ⊢ Pipeline.ΦA spec0 c := Phi_fwd V c _

end Cert.Kernel.Fr

end
-- ==== Proof.K.R1Frame.lean ====
import proofs.«408609_j52080773431571_2_alg».proof.Proof.Gen.Kernel.Launch
import proofs.«408609_j52080773431571_2_alg».proof.Proof.Gen.Kernel.Skeleton
import proofs.«408609_j52080773431571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The block of window `w` at grid point `t`, read from the window's array at its contents `V`.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S128x768 := Rect.unit (s := S128x768) ![0, 0] S128x768.size inb_S128x768_S128x768_0_0
abbrev r1_1 : Rect S768x1024 := Rect.unit (s := S768x1024) ![0, 0] S768x1024.size inb_S768x1024_S768x1024_0_0
abbrev r1_2 : Rect S1x1024 := Rect.unit (s := S1x1024) ![0, 0] S1x1024.size inb_S1x1024_S1x1024_0_0
abbrev r1_3 : Rect S1024x10000 := Rect.unit (s := S1024x10000) ![0, 0] S1024x10000.size inb_S1024x10000_S1024x10000_0_0
abbrev r1_4 : Rect S1x10000 := Rect.unit (s := S1x10000) ![0, 0] S1x10000.size inb_S1x10000_S1x10000_0_0
abbrev r1_5 : Rect S128x10000 := Rect.unit (s := S128x10000) ![0, 0] S128x10000.size inb_S128x10000_S128x10000_0_0

-- What the body's single covering write leaves in the output buffer, as a function of the five input blocks.
def out1_5 (x0 : Vec F S128x768 .bf16) (x1 : Vec F S768x1024 .bf16) (x2 : Vec F S1x1024 .f32) (x3 : Vec F S1024x10000 .bf16) (x4 : Vec F S1x10000 .f32) : Vec F S128x10000 .f32 :=
  View.canon [⟨r1_5, k1_pay1 (View.ld x0 r1_0) (View.ld x1 r1_1) (View.ld x2 r1_2) (View.ld x3 r1_3) (View.ld x4 r1_4)⟩]

-- The body keeps its five inputs and ends with the output at `out1_5` of them: five loads, one pure value, one covering store.
theorem sound_kernel1 (c : Dev nD) (E : Set ℕ) (i : grid1.Coords)
    (arg1 : Memref sig .tc .vmem S128x768 .bf16) (harg1 : arg1.IsWhole) (arg2 : Memref sig .tc .vmem S768x1024 .bf16) (harg2 : arg2.IsWhole)
    (arg3 : Memref sig .tc .vmem S1x1024 .f32) (harg3 : arg3.IsWhole) (arg4 : Memref sig .tc .vmem S1024x10000 .bf16) (harg4 : arg4.IsWhole)
    (arg5 : Memref sig .tc .vmem S1x10000 .f32) (harg5 : arg5.IsWhole) (arg6 : Memref sig .tc .vmem S128x10000 .f32) (harg6 : arg6.IsWhole)
    (x0 : Vec F S128x768 .bf16) (x1 : Vec F S768x1024 .bf16) (x2 : Vec F S1x1024 .f32) (x3 : Vec F S1024x10000 .bf16) (x4 : Vec F S1x10000 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out1_5 x0 x1 x2 x3 x4)) -∗ K ⟨⟩))
      ⊢ wp frame (wpE (defs₀ (F := F)) Variants.none c none) E (cc1_mlp_kernel i arg1 harg1 arg2 harg2 arg3 harg3 arg4 harg4 arg5 harg5 arg6 harg6) K := by
  simp only [cc1_mlp_kernel_eq_skeleton]; unfold cc1_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S128x10000.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

-- What the body finds in an input window at a point is that window's block there.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

def bodyPre1 (c : Dev nD) (t : Fin cfg1.N) : sProp 𝕄 :=
  iprop(Pipeline.ΦA spec1 c ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d)))

def bodyPost1 (c : Dev nD) (t : Fin cfg1.N) : sProp 𝕄 :=
  iprop(Pipeline.ΦA spec1 c ∗ (dat1 V c).owesAt () t.castSucc
    ∗ owns c (st1_0 t) fullShare (iblk1 V c 0 t)
    ∗ owns c (st1_1 t) fullShare (iblk1 V c 1 t)
    ∗ owns c (st1_2 t) fullShare (iblk1 V c 2 t)
    ∗ owns c (st1_3 t) fullShare (iblk1 V c 3 t)
    ∗ owns c (st1_4 t) fullShare (iblk1 V c 4 t)
    ∗ owns c (st1_5 t) fullShare ((dat1 V c).after 5 t))

-- The input buffers hold their blocks, so the body's triple applies; the invariant and what is owed pass through unread.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ _ _ _ _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
import proofs.«408609_j52080773431571_2_alg».proof.Proof.K.R0Frame
import proofs.«408609_j52080773431571_2_alg».proof.Proof.K.R1Frame

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

-- After region 0: each of its arrays at what the region leaves there, every other buffer as before.
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev W4 : Dev nD → Valuation τ sig (Elt F) := fun c => StableHlo.after hostOps1_1 (W3 m ρ c)

abbrev W5 : Dev nD → Valuation τ sig (Elt F) := fun c => StableHlo.after hostOps1_2 (W4 m ρ c)

abbrev V5 : (c : Dev nD) → (b : Ref sig .tc) → Buf (Elt F) ((c : Thread nD τ).loc b) := fun c b => W5 m ρ c b

-- After region 1, likewise: the contents the program ends with.
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

abbrev wr0 : List (Ref sig .tc) := [main_v0, main_v1, main_v2]

abbrev wr1 : List (Ref sig .tc) := [main_v4, main_c]

abbrev wr1_1 : List (Ref sig .tc) := [main_call0_v0, main_v5]

abbrev wr1_2 : List (Ref sig .tc) := [main_v6, main_v7, main_v8, main_v9, main_v10]

-- Every operation of the stretch `ops` writes a reference of the list `wr`.
abbrev Wr (ops : List (HloOp τ sig (Elt F))) (wr : List (Ref sig .tc)) : Prop :=
  ops.Forall fun op => op.writes ⊆ (wr.map (Proc.devRef (τ := τ) .tc)).toFinset

theorem hostOps_wr : Wr (F := F) hostOps0 wr0 ∧ Wr (F := F) hostOps1 wr1 ∧ Wr (F := F) hostOps1_1 wr1_1 ∧ Wr (F := F) hostOps1_2 wr1_2 := by
  simp only [Wr, List.Forall, StableHlo.nullary_writes, StableHlo.unary_writes, StableHlo.binary_writes, StableHlo.reshape_writes,
    Finset.singleton_subset_iff, List.mem_toFinset]
  refine ⟨⟨?_, ?_, ?_⟩, ⟨?_, ?_⟩, ⟨?_, ?_⟩, ?_, ?_, ?_, ?_, ?_⟩ <;> exact List.mem_map_of_mem (by decide)

theorem W1_of (c : Dev nD) (r : Ref sig .tc) (h : r ∉ (wr0 : List (Ref sig .tc))) :
    W1 m ρ c (Proc.devRef .tc r) = W0 m ρ c (Proc.devRef .tc r) :=
  StableHlo.after_of_writes_sub hostOps0 _ hostOps_wr.1 h

-- A reference that no host stretch writes, that region 1 has no window on and that region 0 at most reads ends as launched.
abbrev Kept (r : Ref sig .tc) : Prop :=
  (r ∉ wr0 ∧ r ∉ wr1 ∧ r ∉ wr1_1 ∧ r ∉ wr1_2) ∧ (∀ w, Pipeline.arrRef spec1 w ≠ r)
    ∧ ∀ w, Pipeline.arrRef spec0 w = r → (cfg0.win w).isOut = false

theorem W6_kept (c : Dev nD) (r : Ref sig .tc) (h : Kept r) :
    W6 m ρ c (Proc.devRef .tc r) = m ((c : Thread nD τ).loc r) := by
  obtain ⟨⟨ha, hb, hc, hd⟩, h1, h0⟩ := h
  have h2 : W2 m ρ c (Proc.devRef .tc r) = W1 m ρ c (Proc.devRef .tc r) := by
    by_cases hw : ∃ w, Pipeline.arrRef spec0 w = r
    · obtain ⟨w, rfl⟩ := hw
      exact (W2_arr m ρ c w).trans (((dat0 (V1 m ρ) c).arrAt_in w (h0 w rfl) _).trans (A_eq0 (V1 m ρ) c w))
    · exact W2_of_ne m ρ c r fun w e => hw ⟨w, e⟩
  exact (W6_of_ne m ρ c r h1).trans ((StableHlo.after_of_writes_sub hostOps1_2 _ hostOps_wr.2.2.2 hd).trans
    ((StableHlo.after_of_writes_sub hostOps1_1 _ hostOps_wr.2.2.1 hc).trans
      ((StableHlo.after_of_writes_sub hostOps1 _ hostOps_wr.2.1 hb).trans (h2.trans (W1_of m ρ c r ha)))))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes c (0 : CellTallies nD τ sig Unit) W)

abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held c (Pipeline.ucRefs τ sig) (W6 m ρ c) ∗ ∃ r, prngReg c r)

-- Region 0 as a segment from contents `W1` to `W2`: its arrays leave the unscoped buffers at entry and rejoin them at exit.
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held c (Pipeline.ucRefs τ sig) (W1 m ρ c) ∗ R c)
  post c := iprop(StableHlo.held c (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (fun b => W2 m ρ c b) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- Region 1 as a segment from contents `W5` to `W6`, in the same way.
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held c (Pipeline.ucRefs τ sig) (W5 m ρ c) ∗ R c)
  post c := iprop(Tₙ m ρ c ∗ ∃ W, owes c (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (fun b => W6 m ρ c b) ((pdats m ρ 1 c).arrAt · cfg1.N) (fun w => (W6_arr m ρ c w).symm)
      fun b hb => W6_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

-- The program's six segments in order: a host stretch, region 0, three host stretches, region 1.
abbrev segs : List (Pipeline.Seg (pcfgs (F := F)) adm (pdats m ρ) () defs₀ 𝒱₀ L lv) :=
  [ .host (hseg hostOps0 hostOps0_sub (W0 m ρ)),
    .region (reg0 m ρ),
    .host (hseg hostOps1 hostOps1_sub (W2 m ρ)),
    .host (hseg hostOps1_1 hostOps1_1_sub (W3 m ρ)),
    .host (hseg hostOps1_2 hostOps1_2_sub (W4 m ρ)),
    .region (reg1 m ρ) ]

theorem main_run (c : Dev nD) : main (F := F) c = Pipeline.Seg.run (segs m ρ) := (main_chain c).trans (by chain_rfl)

-- Every weakly fair run from launch memory `m` ends without fault with each unscoped buffer of each core at `W6`.
theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held c (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held c (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

-- At the end every unscoped buffer holds `W6`, and one that nothing writes its launch contents.
theorem run_kept : θ_run defs (onTc (τ := τ) (main (F := F))) ⟨m, fun _ => 0, ρ⟩
    (fun r => ∀ c : Dev nD, (∀ b ∈ Pipeline.ucRefs τ sig, r.2.mem ((c : Thread nD τ).1, b) = W6 m ρ c b)
      ∧ ∀ b : Ref sig .tc, ¬ (Proc.devRef .tc b : DevRef τ sig).isScoped → Kept b →
        r.2.mem ((c : Thread nD τ).loc b) = m ((c : Thread nD τ).loc b)) :=
  (θ_run defs _ _).mono (fun r h c => ⟨h c, fun b h1 h2 => (h c _ (mem_uc b h1)).trans (W6_kept m ρ c b h2)⟩) (run_all m ρ)

end Cert.Kernel.Fr

end
-- ==== Proof.KI.R0Base.lean ====
import proofs.«408609_j52080773431571_2_alg».proof.Proof.Gen.KernelIdeal.Launch
import proofs.«408609_j52080773431571_2_alg».proof.Proof.Gen.KernelIdeal.Skeleton
import proofs.«408609_j52080773431571_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 := by decide +kernel
abbrev cond0_1 (i : grid0.Coords) : Prop := k0_cond2 i = 1#1
theorem hcond0_1 : ∀ t : Fin cfg0.N, cond0_1 (grid0.coords t) ↔ t.val % 25 = 24 := by decide +kernel

theorem liveAt0 : ∀ (w : Fin cfg0.W) (t : Fin cfg0.N), w ≠ 8 → cfg0.idle w (grid0.coords t) = false := by decide +kernel
theorem idleAt0_8 : ∀ t : Fin cfg0.N, ¬cond0_1 (grid0.coords t) → cfg0.idle 8 (grid0.coords t) = true ∧ (cfg0.win 8).flush t = false := by decide +kernel
theorem liveAt0_8 : ∀ t : Fin cfg0.N, cond0_1 (grid0.coords t) → cfg0.idle 8 (grid0.coords t) = false := by decide +kernel

abbrev VO0_8 : View sig .tc .vmem S512x768 .bf16 := (Memref.whole cc0_stg8_0 : Memref sig .tc .vmem S512x768 .bf16).view
abbrev ms0_0 (t : Fin cfg0.N) : Memref sig .tc .vmem S512x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x8 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x7 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x768 .bf16 := win0_8.stage (cfg0.slots t 8)
abbrev hs0_8 (t : Fin cfg0.N) : (ms0_8 t).IsWhole := hstage0_8 ((cfg0.slots t 8).cast nbuf0_8)
abbrev scM0_0 : Memref sig .tc .vmem S512x128 .f32 := Memref.whole cc0_scratch0
abbrev scM0_1 : Memref sig .tc .vmem S512x256 .f32 := Memref.whole cc0_scratch1
abbrev scM0_2 : Memref sig .tc .vmem S512x256 .f32 := Memref.whole cc0_scratch2
abbrev VS0_0 : View sig .tc .vmem S512x128 .f32 := scM0_0.view
abbrev VS0_1 : View sig .tc .vmem S512x256 .f32 := scM0_1.view
abbrev VS0_2 : View sig .tc .vmem S512x256 .f32 := scM0_2.view

abbrev otherStg (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherStg c) ∗ (∃ r, prngReg c r)) := by
  unfold Pipeline.ΦA; rw [scopedRest0_eq]; simp only [scM0_0, scM0_1, scM0_2, owns_whole]; try rfl

/-- A whole memref that reads `x` is its buffer at the contents reading `x`: reading is a bijection there. -/
theorem owns_unread {s : Shape} {e : EltTy} (c : Dev nD) {m : Memref sig .tc .vmem s e} (h : m.IsWhole) (x : Vec F s e) :
    (owns (c : Thread nD τ) m fullShare x : sProp 𝕄) = (m.view.loc (c : Thread nD τ) ↦[m.view.set]{fullShare} h.unread x) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

/-- Pieces that cover a buffer fix what it reads, whatever it held before. -/
theorem owns_cover {s : Shape} {e : EltTy} (c : Dev nD) (m : Memref sig .tc .vmem s e) (v : View sig .tc .vmem s e)
    (L : List (View.Piece (Elt F) s e)) (h : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (v.read (Elt F) (v.writes (Elt F) v.junk L)) := by
  unfold owns; iintro ⟨%f, H⟩; iexists (m.view.writes (Elt F) f L); isplitr; · ipureintro; exact View.read_writes_of_cover _ _ _ _ _ h
  iexact H

end Cert.KernelIdeal.Fr

end
-- ==== Proof.KI.R0RunA.lean ====
import proofs.«408609_j52080773431571_2_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_A (c : Dev nD) (i : grid0.Coords) (arg2 : Memref sig .tc .vmem S512x1 .i32) (harg2 : arg2.IsWhole) (arg3 : Memref sig .tc .vmem S512x8 .i32) (harg3 : arg3.IsWhole) (arg4 : Memref sig .tc .vmem S512x8 .i32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x7 .f32) (harg7 : arg7.IsWhole) (arg8 : Memref sig .tc .vmem S400x128 .bf16) (harg8 : arg8.IsWhole) (arg9 : Memref sig .tc .vmem S2000x256 .bf16) (harg9 : arg9.IsWhole) (arg10 : Memref sig .tc .vmem S512x768 .bf16) (harg10 : arg10.IsWhole) (arg11 : Memref sig .tc .vmem S512x128 .f32) (harg11 : arg11.IsWhole) (arg12 : Memref sig .tc .vmem S512x256 .f32) (harg12 : arg12.IsWhole) (arg13 : Memref sig .tc .vmem S512x256 .f32) (harg13 : arg13.IsWhole) (hc0 : cond0_0 i) (hc1 : ¬cond0_1 i)
    (x0 : Vec F S512x1 .i32) (x1 x2 : Vec F S512x8 .i32) (x3 x4 : Vec F S512x256 .f32) (x5 : Vec F S512x7 .f32) (x6 : Vec F S400x128 .bf16) (x7 : Vec F S2000x256 .bf16) :
    Σ' (L8 : List (View.Piece (Elt F) S512x768 .bf16)) (LS0 : List (View.Piece (Elt F) S512x128 .f32)) (LS1 : List (View.Piece (Elt F) S512x256 .f32)),
      { LS2 : List (View.Piece (Elt F) S512x256 .f32) // ∀ (xi8 : Vec F S512x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_embed_kernel i arg2 harg2 arg3 harg3 arg4 harg4 arg5 harg5 arg6 harg6 arg7 harg7 arg8 harg8 arg9 harg9 arg10 harg10 arg11 harg11 arg12 harg12 arg13 harg13) K } := by
  refine ⟨[], ?_, ?_, ⟨?_, fun xi8 E K => ?run⟩⟩
  case run =>
    simp only [cc0_embed_kernel_eq_skeleton]; unfold cc0_embed_kernel_skel
    rw [owns_unread c harg2, owns_unread c harg3, owns_unread c harg4, owns_unread c harg5, owns_unread c harg6, owns_unread c harg7, owns_unread c harg8, owns_unread c harg9, owns_unread c harg10]
    unfold owns
    iintro ⟨H0, H1, H2, H3, H4, H5, H6, H7, H8, ⟨%ds0, %fs0, -, HS0⟩, ⟨%ds1, %fs1, -, HS1⟩, ⟨%ds2, %fs2, -, HS2⟩, Hk⟩
    sl_exec (disch := first | exact hc0 | exact hc1)
    sl_step
    iapply Hk
    iframe H0 H1 H2 H3 H4 H5 H6 H7 H8
    isplitl [HS0]; · iexists _; iexact HS0
    isplitl [HS1]; · iexists _; iexact HS1
    iexists _; iexact HS2

end Cert.KernelIdeal.Fr

end
-- ==== Proof.KI.R0RunB.lean ====
import proofs.«408609_j52080773431571_2_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_B (c : Dev nD) (i : grid0.Coords) (arg2 : Memref sig .tc .vmem S512x1 .i32) (harg2 : arg2.IsWhole) (arg3 : Memref sig .tc .vmem S512x8 .i32) (harg3 : arg3.IsWhole) (arg4 : Memref sig .tc .vmem S512x8 .i32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x7 .f32) (harg7 : arg7.IsWhole) (arg8 : Memref sig .tc .vmem S400x128 .bf16) (harg8 : arg8.IsWhole) (arg9 : Memref sig .tc .vmem S2000x256 .bf16) (harg9 : arg9.IsWhole) (arg10 : Memref sig .tc .vmem S512x768 .bf16) (harg10 : arg10.IsWhole) (arg11 : Memref sig .tc .vmem S512x128 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : ¬cond0_1 i)
    (x0 : Vec F S512x1 .i32) (x1 x2 : Vec F S512x8 .i32) (x3 x4 : Vec F S512x256 .f32) (x5 : Vec F S512x7 .f32) (x6 : Vec F S400x128 .bf16) (x7 : Vec F S2000x256 .bf16) (xs0 : Vec F S512x128 .f32) (xs1 xs2 : Vec F S512x256 .f32) :
    Σ' (L8 : List (View.Piece (Elt F) S512x768 .bf16)) (LS0 : List (View.Piece (Elt F) S512x128 .f32)) (LS1 : List (View.Piece (Elt F) S512x256 .f32)),
      { LS2 : List (View.Piece (Elt F) S512x256 .f32) // ∀ (xi8 : Vec F S512x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_embed_kernel i arg2 harg2 arg3 harg3 arg4 harg4 arg5 harg5 arg6 harg6 arg7 harg7 arg8 harg8 arg9 harg9 arg10 harg10 arg11 harg11 arg12 harg12 arg13 harg13) K } := by
  refine ⟨[], ?_, ?_, ⟨?_, fun xi8 E K => ?run⟩⟩
  case run =>
    simp only [cc0_embed_kernel_eq_skeleton]; unfold cc0_embed_kernel_skel
    rw [owns_unread c harg2, owns_unread c harg3, owns_unread c harg4, owns_unread c harg5, owns_unread c harg6, owns_unread c harg7, owns_unread c harg8, owns_unread c harg9, owns_unread c harg10, owns_unread c harg11, owns_unread c harg12, owns_unread c harg13]
    iintro ⟨H0, H1, H2, H3, H4, H5, H6, H7, H8, HS0, HS1, HS2, Hk⟩
    sl_exec (disch := first | exact hc0 | exact hc1)
    sl_step
    iapply Hk
    iframe H0 H1 H2 H3 H4 H5 H6 H7 H8
    isplitl [HS0]; · iexists _; iexact HS0
    isplitl [HS1]; · iexists _; iexact HS1
    iexists _; iexact HS2

end Cert.KernelIdeal.Fr

end
-- ==== Proof.KI.R0RunC.lean ====
import proofs.«408609_j52080773431571_2_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
def kernelRun0_C (c : Dev nD) (i : grid0.Coords) (arg2 : Memref sig .tc .vmem S512x1 .i32) (harg2 : arg2.IsWhole) (arg3 : Memref sig .tc .vmem S512x8 .i32) (harg3 : arg3.IsWhole) (arg4 : Memref sig .tc .vmem S512x8 .i32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x7 .f32) (harg7 : arg7.IsWhole) (arg8 : Memref sig .tc .vmem S400x128 .bf16) (harg8 : arg8.IsWhole) (arg9 : Memref sig .tc .vmem S2000x256 .bf16) (harg9 : arg9.IsWhole) (arg10 : Memref sig .tc .vmem S512x768 .bf16) (harg10 : arg10.IsWhole) (arg11 : Memref sig .tc .vmem S512x128 .f32) (harg11 : arg11.IsWhole) (arg12 : Memref sig .tc .vmem S512x256 .f32) (harg12 : arg12.IsWhole) (arg13 : Memref sig .tc .vmem S512x256 .f32) (harg13 : arg13.IsWhole) (hc0 : ¬cond0_0 i) (hc1 : cond0_1 i)
    (x0 : Vec F S512x1 .i32) (x1 x2 : Vec F S512x8 .i32) (x3 x4 : Vec F S512x256 .f32) (x5 : Vec F S512x7 .f32) (x6 : Vec F S400x128 .bf16) (x7 : Vec F S2000x256 .bf16) (xs0 : Vec F S512x128 .f32) (xs1 xs2 : Vec F S512x256 .f32) :
    Σ' (L8 : List (View.Piece (Elt F) S512x768 .bf16)) (LS0 : List (View.Piece (Elt F) S512x128 .f32)) (LS1 : List (View.Piece (Elt F) S512x256 .f32)),
      { LS2 : List (View.Piece (Elt F) S512x256 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_embed_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ⟨?_, fun E K => ?run⟩⟩
  case run =>
    simp only [cc0_embed_kernel_eq_skeleton]; unfold cc0_embed_kernel_skel
    rw [owns_unread c harg2, owns_unread c harg3, owns_unread c harg4, owns_unread c harg5, owns_unread c harg6, owns_unread c harg7, owns_unread c harg8, owns_unread c harg9, owns_unread c harg11, owns_unread c harg12, owns_unread c harg13]
    unfold owns
    iintro ⟨H0, H1, H2, H3, H4, H5, H6, H7, ⟨%d8, %f8, -, H8⟩, HS0, HS1, HS2, Hk⟩
    sl_exec (disch := first | exact hc0 | exact hc1)
    sl_step
    iapply Hk
    iframe H0 H1 H2 H3 H4 H5 H6 H7
    isplitl [H8]; · iexists _; iexact H8
    isplitl [HS0]; · iexists _; iexact HS0
    isplitl [HS1]; · iexists _; iexact HS1
    iexists _; iexact HS2

end Cert.KernelIdeal.Fr

end
-- ==== Proof.KI.R0Frame.lean ====
import proofs.«408609_j52080773431571_2_alg».proof.Proof.KI.R0RunA
import proofs.«408609_j52080773431571_2_alg».proof.Proof.KI.R0RunB
import proofs.«408609_j52080773431571_2_alg».proof.Proof.KI.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Pieces

variable (c : Dev nD) (i : grid0.Coords)
  (arg2 : Memref sig .tc .vmem S512x1 .i32) (harg2 : arg2.IsWhole) (arg3 : Memref sig .tc .vmem S512x8 .i32) (harg3 : arg3.IsWhole)
  (arg4 : Memref sig .tc .vmem S512x8 .i32) (harg4 : arg4.IsWhole) (arg5 : Memref sig .tc .vmem S512x256 .f32) (harg5 : arg5.IsWhole)
  (arg6 : Memref sig .tc .vmem S512x256 .f32) (harg6 : arg6.IsWhole) (arg7 : Memref sig .tc .vmem S512x7 .f32) (harg7 : arg7.IsWhole)
  (arg8 : Memref sig .tc .vmem S400x128 .bf16) (harg8 : arg8.IsWhole) (arg9 : Memref sig .tc .vmem S2000x256 .bf16) (harg9 : arg9.IsWhole)
  (arg10 : Memref sig .tc .vmem S512x768 .bf16) (harg10 : arg10.IsWhole) (arg11 : Memref sig .tc .vmem S512x128 .f32) (harg11 : arg11.IsWhole)
  (arg12 : Memref sig .tc .vmem S512x256 .f32) (harg12 : arg12.IsWhole) (arg13 : Memref sig .tc .vmem S512x256 .f32) (harg13 : arg13.IsWhole)

local notation:max "run0 " f:max => f c i arg2 harg2 arg3 harg3 arg4 harg4 arg5 harg5 arg6 harg6 arg7 harg7 arg8 harg8 arg9 harg9 arg10 harg10 arg11 harg11 arg12 harg12 arg13 harg13

section CaseA

variable (hc0 : cond0_0 i) (hc1 : ¬cond0_1 i)
  (x0 : Vec F S512x1 .i32) (x1 x2 : Vec F S512x8 .i32) (x3 x4 : Vec F S512x256 .f32) (x5 : Vec F S512x7 .f32)
  (x6 : Vec F S400x128 .bf16) (x7 : Vec F S2000x256 .bf16)

local notation "runA" => run0 kernelRun0_A hc0 hc1 x0 x1 x2 x3 x4 x5 x6 x7

def out0_A_8 : Vec F S512x768 .bf16 :=
  VO0_8.read (Elt F) (VO0_8.writes (Elt F) VO0_8.junk (runA).1)

theorem scover0_A_0 (y : S512x128.Idx) : ∃ pc ∈ (runA).2.1, y ∈ pc.1.set :=
  View.cover_of_tiledL (runA).2.1 S512x128.size (by sl_kernel_rfl) y

def sout0_A_0 : Vec F S512x128 .f32 :=
  VS0_0.read (Elt F) (VS0_0.writes (Elt F) VS0_0.junk (runA).2.1)

theorem scover0_A_1 (y : S512x256.Idx) : ∃ pc ∈ (runA).2.2.1, y ∈ pc.1.set :=
  View.cover_of_tiledL (runA).2.2.1 S512x256.size (by sl_kernel_rfl) y

def sout0_A_1 : Vec F S512x256 .f32 :=
  VS0_1.read (Elt F) (VS0_1.writes (Elt F) VS0_1.junk (runA).2.2.1)

theorem scover0_A_2 (y : S512x256.Idx) : ∃ pc ∈ (runA).2.2.2.1, y ∈ pc.1.set :=
  View.cover_of_tiledL (runA).2.2.2.1 S512x256.size (by sl_kernel_rfl) y

def sout0_A_2 : Vec F S512x256 .f32 :=
  VS0_2.read (Elt F) (VS0_2.writes (Elt F) VS0_2.junk (runA).2.2.2.1)

end CaseA

section CaseB

variable (hc0 : ¬cond0_0 i) (hc1 : ¬cond0_1 i)
  (x0 : Vec F S512x1 .i32) (x1 x2 : Vec F S512x8 .i32) (x3 x4 : Vec F S512x256 .f32) (x5 : Vec F S512x7 .f32)
  (x6 : Vec F S400x128 .bf16) (x7 : Vec F S2000x256 .bf16)
  (xs0 : Vec F S512x128 .f32) (xs1 xs2 : Vec F S512x256 .f32)

local notation "runB" => run0 kernelRun0_B hc0 hc1 x0 x1 x2 x3 x4 x5 x6 x7 xs0 xs1 xs2

def out0_B_8 : Vec F S512x768 .bf16 :=
  VO0_8.read (Elt F) (VO0_8.writes (Elt F) VO0_8.junk (runB).1)

theorem scover0_B_0 (y : S512x128.Idx) : ∃ pc ∈ (runB).2.1, y ∈ pc.1.set :=
  View.cover_of_tiledL (runB).2.1 S512x128.size (by sl_kernel_rfl) y

def sout0_B_0 : Vec F S512x128 .f32 :=
  VS0_0.read (Elt F) (VS0_0.writes (Elt F) VS0_0.junk (runB).2.1)

theorem scover0_B_1 (y : S512x256.Idx) : ∃ pc ∈ (runB).2.2.1, y ∈ pc.1.set :=
  View.cover_of_tiledL (runB).2.2.1 S512x256.size (by sl_kernel_rfl) y

def sout0_B_1 : Vec F S512x256 .f32 :=
  VS0_1.read (Elt F) (VS0_1.writes (Elt F) VS0_1.junk (runB).2.2.1)

theorem scover0_B_2 (y : S512x256.Idx) : ∃ pc ∈ (runB).2.2.2.1, y ∈ pc.1.set :=
  View.cover_of_tiledL (runB).2.2.2.1 S512x256.size (by sl_kernel_rfl) y

def sout0_B_2 : Vec F S512x256 .f32 :=
  VS0_2.read (Elt F) (VS0_2.writes (Elt F) VS0_2.junk (runB).2.2.2.1)

end CaseB

section CaseC

variable (hc0 : ¬cond0_0 i) (hc1 : cond0_1 i)
  (x0 : Vec F S512x1 .i32) (x1 x2 : Vec F S512x8 .i32) (x3 x4 : Vec F S512x256 .f32) (x5 : Vec F S512x7 .f32)
  (x6 : Vec F S400x128 .bf16) (x7 : Vec F S2000x256 .bf16)
  (xs0 : Vec F S512x128 .f32) (xs1 xs2 : Vec F S512x256 .f32)

local notation "runC" => run0 kernelRun0_C hc0 hc1 x0 x1 x2 x3 x4 x5 x6 x7 xs0 xs1 xs2

theorem cover0_C_8 (y : S512x768.Idx) : ∃ pc ∈ (runC).1, y ∈ pc.1.set :=
  View.cover_of_tiledBy (runC).1 ![512, 1] (by sl_kernel_rfl) y

def out0_C_8 : Vec F S512x768 .bf16 :=
  VO0_8.read (Elt F) (VO0_8.writes (Elt F) VO0_8.junk (runC).1)

theorem scover0_C_0 (y : S512x128.Idx) : ∃ pc ∈ (runC).2.1, y ∈ pc.1.set :=
  View.cover_of_tiledL (runC).2.1 S512x128.size (by sl_kernel_rfl) y

def sout0_C_0 : Vec F S512x128 .f32 :=
  VS0_0.read (Elt F) (VS0_0.writes (Elt F) VS0_0.junk (runC).2.1)

theorem scover0_C_1 (y : S512x256.Idx) : ∃ pc ∈ (runC).2.2.1, y ∈ pc.1.set :=
  View.cover_of_tiledL (runC).2.2.1 S512x256.size (by sl_kernel_rfl) y

def sout0_C_1 : Vec F S512x256 .f32 :=
  VS0_1.read (Elt F) (VS0_1.writes (Elt F) VS0_1.junk (runC).2.2.1)

theorem scover0_C_2 (y : S512x256.Idx) : ∃ pc ∈ (runC).2.2.2.1, y ∈ pc.1.set :=
  View.cover_of_tiledL (runC).2.2.2.1 S512x256.size (by sl_kernel_rfl) y

def sout0_C_2 : Vec F S512x256 .f32 :=
  VS0_2.read (Elt F) (VS0_2.writes (Elt F) VS0_2.junk (runC).2.2.2.1)

end CaseC

end Pieces

section AtPoint

variable (c : Dev nD) (t : Fin cfg0.N)

local notation:max "at0 " f:max h0:max h1:max => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) h0 h1 (iblk0 V c 0 t) (iblk0 V c 1 t) (iblk0 V c 2 t) (iblk0 V c 3 t) (iblk0 V c 4 t) (iblk0 V c 5 t) (iblk0 V c 6 t) (iblk0 V c 7 t)

section CaseA
variable (hc0 : cond0_0 (grid0.coords t)) (hc1 : ¬cond0_1 (grid0.coords t))

def ptA : Vec F S512x768 .bf16 × Vec F S512x128 .f32 × Vec F S512x256 .f32 × Vec F S512x256 .f32 :=
  (at0 out0_A_8 hc0 hc1, at0 sout0_A_0 hc0 hc1, at0 sout0_A_1 hc0 hc1, at0 sout0_A_2 hc0 hc1)
end CaseA

section CaseB
variable (hc0 : ¬cond0_0 (grid0.coords t)) (hc1 : ¬cond0_1 (grid0.coords t))
  (a0 : Vec F S512x128 .f32) (a1 a2 : Vec F S512x256 .f32)

def ptB : Vec F S512x768 .bf16 × Vec F S512x128 .f32 × Vec F S512x256 .f32 × Vec F S512x256 .f32 :=
  (at0 out0_B_8 hc0 hc1 a0 a1 a2, at0 sout0_B_0 hc0 hc1 a0 a1 a2, at0 sout0_B_1 hc0 hc1 a0 a1 a2, at0 sout0_B_2 hc0 hc1 a0 a1 a2)
end CaseB

section CaseC
variable (hc0 : ¬cond0_0 (grid0.coords t)) (hc1 : cond0_1 (grid0.coords t))
  (a0 : Vec F S512x128 .f32) (a1 a2 : Vec F S512x256 .f32)

def ptC : Vec F S512x768 .bf16 × Vec F S512x128 .f32 × Vec F S512x256 .f32 × Vec F S512x256 .f32 :=
  (at0 out0_C_8 hc0 hc1 a0 a1 a2, at0 sout0_C_0 hc0 hc1 a0 a1 a2, at0 sout0_C_1 hc0 hc1 a0 a1 a2, at0 sout0_C_2 hc0 hc1 a0 a1 a2)
end CaseC

end AtPoint

def outsAt0 (c : Dev nD) : (n : ℕ) → n < cfg0.N → Vec F S512x768 .bf16 × Vec F S512x128 .f32 × Vec F S512x256 .f32 × Vec F S512x256 .f32
  | 0, hn => ptA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 25 = 0 then
      if h1 : (n + 1) % 25 = 24 then
        False.elim (by omega)
      else
        ptA V c ⟨n + 1, hn⟩ ((hcond0_0 ⟨n + 1, hn⟩).mpr h0) (fun h => h1 ((hcond0_1 ⟨n + 1, hn⟩).mp h))
    else
      if h1 : (n + 1) % 25 = 24 then
        ptC V c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2.1 (outsAt0 c n (Nat.lt_of_succ_lt hn)).2.2.2
      else
        ptB V c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2.1 (outsAt0 c n (Nat.lt_of_succ_lt hn)).2.2.2

theorem outsAt0_A (c : Dev nD) (t : Fin cfg0.N) (h0 : t.val % 25 = 0) (h1 : ¬t.val % 25 = 24) :
    outsAt0 V c t.val t.isLt = ptA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = ptB V c t (fun h => h0 ((hcond0_0 t).mp h)) (fun h => h1 ((hcond0_1 t).mp h))
      (outsAt0 V c (t.val - 1) (Nat.lt_of_le_of_lt (Nat.sub_le _ _) t.isLt)).2.1
      (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 25 = 0) (h1 : t.val % 25 = 24) :
    outsAt0 V c t.val t.isLt = ptC V c t (fun h => h0 ((hcond0_0 t).mp h)) ((hcond0_1 t).mpr h1)
      (outsAt0 V c (t.val - 1) (Nat.lt_of_le_of_lt (Nat.sub_le _ _) t.isLt)).2.1
      (outsAt0 V c (t.val - 1) (Nat.lt_of_le_of_lt (Nat.sub_le _ _) t.isLt)).2.2.1
      (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

abbrev PhiAt (c : Dev nD) (p : Vec F S512x768 .bf16 × Vec F S512x128 .f32 × Vec F S512x256 .f32 × Vec F S512x256 .f32) : sProp 𝕄 :=
  iprop(iprop(owns (c : Thread nD τ) scM0_0 fullShare p.2.1 ∗ owns (c : Thread nD τ) scM0_1 fullShare p.2.2.1 ∗ owns (c : Thread nD τ) scM0_2 fullShare p.2.2.2 ∗ otherStg c) ∗ (∃ r, prngReg c r))

/-- Before the first point the accumulators hold anything; afterwards what the point before left. -/
def PhiS (c : Dev nD) : (n : ℕ) → n ≤ cfg0.N → sProp 𝕄
  | 0, _ => Pipeline.ΦA spec0 c
  | n + 1, hn => PhiAt c (outsAt0 V c n hn)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := rfl

/-- Before a point that is not the first: the accumulators at what the point before left. -/
theorem Phi_pos (c : Dev nD) (t : Fin cfg0.N) (hz : t.val ≠ 0) :
    (dat0 V c).Φ t.castSucc = PhiAt c (outsAt0 V c (t.val - 1) (Nat.lt_of_le_of_lt (Nat.sub_le _ _) t.isLt)) := by
  obtain ⟨n, hn⟩ := t
  cases n with
  | zero => exact absurd rfl hz
  | succ n => rfl

theorem after0_8 (c : Dev nD) (t : Fin cfg0.N) : (dat0 V c).after 8 t = (outsAt0 V c t.val t.isLt).1 := rfl

theorem before0 (c : Dev nD) (t : Fin cfg0.N) : ∀ w : Fin cfg0.W, w ≠ 8 → ∀ d, (dat0 V c).before w t d = (dat0 V c).after w t
  | ⟨8, _⟩, h, _ => absurd rfl h
  | ⟨0, _⟩, _, d | ⟨1, _⟩, _, d | ⟨2, _⟩, _, d | ⟨3, _⟩, _, d | ⟨4, _⟩, _, d | ⟨5, _⟩, _, d | ⟨6, _⟩, _, d | ⟨7, _⟩, _, d =>
    ((dat0 V c).before_in_eq_fetched _ rfl (fun _ => rfl) (fun _ _ _ => rfl) (fun _ => rfl) t d).trans rfl

theorem leaves0 (c : Dev nD) (t : Fin cfg0.N) (w : Fin cfg0.W) (hw : w ≠ 8) :
    (dat0 V c).leavesExact w t = owns (c : Thread nD τ) ((cfg0.win w).stage (cfg0.slots t w)) fullShare ((dat0 V c).after w t) := by
  unfold Dat.leavesExact; rw [liveAt0 w t hw]

/-- At any point the invariant entails the entry one: the accumulators' named contents are forgotten. -/
theorem Phi_fwd (c : Dev nD) (t : Fin (cfg0.N + 1)) : (dat0 V c).Φ t ⊢ Pipeline.ΦA spec0 c := by
  obtain ⟨n, hn⟩ := t
  cases n with
  | zero => exact Entails.refl _
  | succ n =>
    rw [PhiA0_eq]; show (PhiAt c _ : sProp 𝕄) ⊢ _; unfold PhiAt
    iintro ⟨⟨HS0, HS1, HS2, HR⟩, Hg⟩
    iframe HR Hg
    isplitl [HS0]; · iexists _; iexact HS0
    isplitl [HS1]; · iexists _; iexact HS1
    iexists _; iexact HS2

def bodyPre (c : Dev nD) (t : Fin cfg0.N) : sProp 𝕄 :=
  iprop((dat0 V c).Φ t.castSucc ∗ (dat0 V c).owesAt () t.castSucc
    ∗ bigSep Finset.univ fun w : Fin cfg0.W => iprop(∃ d, owns (c : Thread nD τ) ((cfg0.win w).stage (cfg0.slots t w)) fullShare ((dat0 V c).before w t d)))

def bodyPost (c : Dev nD) (t : Fin cfg0.N) : sProp 𝕄 :=
  iprop((dat0 V c).Φ t.succ ∗ (dat0 V c).owesAt () t.succ ∗ bigSep Finset.univ fun w => (dat0 V c).leavesExact w t)

set_option maxHeartbeats 4800000 in
/-- The case `t.val % 25` selects applies: the accumulators come back at what their covering pieces fix, all else passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [bigSep_W0, bigSep_W0]
  simp (disch := decide) only [before0 V c t, leaves0 V c t]
  rw [show (dat0 V c).owesAt () t.succ = (dat0 V c).owesAt () t.castSucc from rfl,
    show (dat0 V c).Φ t.succ = PhiAt c (outsAt0 V c t.val t.isLt) from rfl]
  by_cases h1 : t.val % 25 = 24
  · have h0 : ¬t.val % 25 = 0 := by omega
    have hz : t.val ≠ 0 := by omega
    have c0 := mt (hcond0_0 t).mp h0
    have c1 := (hcond0_1 t).mpr h1
    rw [show (dat0 V c).leavesExact 8 t = owns (c : Thread nD τ) (ms0_8 t) fullShare ((dat0 V c).after 8 t) from by
      unfold Dat.leavesExact; rw [liveAt0_8 t c1], after0_8, outsAt0_C V c t h0 h1, Phi_pos V c t hz]
    unfold PhiAt ptC out0_C_8 sout0_C_0 sout0_C_1 sout0_C_2; (try dsimp only)
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_C c (grid0.coords t) _ _ _ _ _ _ _ _ _ _ _ _ _ _ _ _ _ _ _ _ _ _ _ _ c0 c1 _ _ _ _ _ _ _ _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 HR Hg]
    · isplitl [HS0 HS1 HS2 HR]
      · isplitl [HS0]; · iapply owns_cover c _ _ _ (fun _ => scover0_C_0 ..); iexact HS0
        isplitl [HS1]; · iapply owns_cover c _ _ _ (fun _ => scover0_C_1 ..); iexact HS1
        isplitl [HS2]; · iapply owns_cover c _ _ _ (fun _ => scover0_C_2 ..); iexact HS2
        iexact HR
      iexact Hg
    iframe Ho H0 H1 H2 H3 H4 H5 H6 H7
    iapply owns_cover c _ _ _ (fun _ => cover0_C_8 ..); iexact H8
  · have c1 := mt (hcond0_1 t).mp h1
    rw [Dat.leavesExact_idle (dat0 V c) 8 t (idleAt0_8 t c1).1 (idleAt0_8 t c1).2]
    by_cases h0 : t.val % 25 = 0
    · have c0 := (hcond0_0 t).mpr h0
      rw [outsAt0_A V c t h0 h1]
      unfold PhiAt ptA sout0_A_0 sout0_A_1 sout0_A_2; (try dsimp only)
      refine (sep_mono_left (Phi_fwd V c _)).trans ?_
      rw [PhiA0_eq]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ c0 c1 _ _ _ _ _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 HR Hg]
      · isplitl [HS0 HS1 HS2 HR]
        · isplitl [HS0]; · iapply owns_cover c _ _ _ (fun _ => scover0_A_0 ..); iexact HS0
          isplitl [HS1]; · iapply owns_cover c _ _ _ (fun _ => scover0_A_1 ..); iexact HS1
          isplitl [HS2]; · iapply owns_cover c _ _ _ (fun _ => scover0_A_2 ..); iexact HS2
          iexact HR
        iexact Hg
      iframe Ho H0 H1 H2 H3 H4 H5 H6 H7
      iexists _; iexact H8
    · have hz : t.val ≠ 0 := fun hz => h0 (by rw [hz])
      have c0 := mt (hcond0_0 t).mp h0
      rw [outsAt0_B V c t h0 h1, Phi_pos V c t hz]
      unfold PhiAt ptB sout0_B_0 sout0_B_1 sout0_B_2; (try dsimp only)
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ c0 c1 _ _ _ _ _ _ _ _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 HR Hg]
      · isplitl [HS0 HS1 HS2 HR]
        · isplitl [HS0]; · iapply owns_cover c _ _ _ (fun _ => scover0_B_0 ..); iexact HS0
          isplitl [HS1]; · iapply owns_cover c _ _ _ (fun _ => scover0_B_1 ..); iexact HS1
          isplitl [HS2]; · iapply owns_cover c _ _ _ (fun _ => scover0_B_2 ..); iexact HS2
          iexact HR
        iexact Hg
      iframe Ho H0 H1 H2 H3 H4 H5 H6 H7
      iexists _; iexact H8

theorem body_obligation0 (c : Dev nD) : BodyObligation (dat0 (F := F) V c) (defs₀ (F := F)) Variants.none () Set.univ := sound_body V c

theorem hin0 (c : Dev nD) : Pipeline.ΦA spec0 c ⊢ (dat0 V c).Φ 0 := Entails.refl _

theorem hout0 (c : Dev nD) : (dat0 V c).Φ (Fin.last cfg0.N) ⊢ Pipeline.ΦA spec0 c := Phi_fwd V c _

end Cert.KernelIdeal.Fr

end
-- ==== Proof.KI.R1Frame.lean ====
import proofs.«408609_j52080773431571_2_alg».proof.Proof.Gen.KernelIdeal.Launch
import proofs.«408609_j52080773431571_2_alg».proof.Proof.Gen.KernelIdeal.Skeleton
import proofs.«408609_j52080773431571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The block of window `w` at grid point `t`, read from the window's array at its contents `V`.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S128x768 := Rect.unit (s := S128x768) ![0, 0] S128x768.size inb_S128x768_S128x768_0_0
abbrev r1_1 : Rect S768x1024 := Rect.unit (s := S768x1024) ![0, 0] S768x1024.size inb_S768x1024_S768x1024_0_0
abbrev r1_2 : Rect S1x1024 := Rect.unit (s := S1x1024) ![0, 0] S1x1024.size inb_S1x1024_S1x1024_0_0
abbrev r1_3 : Rect S1024x10000 := Rect.unit (s := S1024x10000) ![0, 0] S1024x10000.size inb_S1024x10000_S1024x10000_0_0
abbrev r1_4 : Rect S1x10000 := Rect.unit (s := S1x10000) ![0, 0] S1x10000.size inb_S1x10000_S1x10000_0_0
abbrev r1_5 : Rect S128x10000 := Rect.unit (s := S128x10000) ![0, 0] S128x10000.size inb_S128x10000_S128x10000_0_0

-- What the body's single covering write leaves in the output buffer, as a function of the five input blocks.
def out1_5 (x0 : Vec F S128x768 .bf16) (x1 : Vec F S768x1024 .bf16) (x2 : Vec F S1x1024 .f32) (x3 : Vec F S1024x10000 .bf16) (x4 : Vec F S1x10000 .f32) : Vec F S128x10000 .f32 :=
  View.canon [⟨r1_5, k1_pay1 (View.ld x0 r1_0) (View.ld x1 r1_1) (View.ld x2 r1_2) (View.ld x3 r1_3) (View.ld x4 r1_4)⟩]

-- The body keeps its five inputs and ends with the output at `out1_5` of them: five loads, one pure value, one covering store.
theorem sound_kernel1 (c : Dev nD) (E : Set ℕ) (i : grid1.Coords)
    (arg1 : Memref sig .tc .vmem S128x768 .bf16) (harg1 : arg1.IsWhole) (arg2 : Memref sig .tc .vmem S768x1024 .bf16) (harg2 : arg2.IsWhole)
    (arg3 : Memref sig .tc .vmem S1x1024 .f32) (harg3 : arg3.IsWhole) (arg4 : Memref sig .tc .vmem S1024x10000 .bf16) (harg4 : arg4.IsWhole)
    (arg5 : Memref sig .tc .vmem S1x10000 .f32) (harg5 : arg5.IsWhole) (arg6 : Memref sig .tc .vmem S128x10000 .f32) (harg6 : arg6.IsWhole)
    (x0 : Vec F S128x768 .bf16) (x1 : Vec F S768x1024 .bf16) (x2 : Vec F S1x1024 .f32) (x3 : Vec F S1024x10000 .bf16) (x4 : Vec F S1x10000 .f32)
    (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out1_5 x0 x1 x2 x3 x4)) -∗ K ⟨⟩))
      ⊢ wp frame (wpE (defs₀ (F := F)) Variants.none c none) E (cc1_mlp_kernel i arg1 harg1 arg2 harg2 arg3 harg3 arg4 harg4 arg5 harg5 arg6 harg6) K := by
  simp only [cc1_mlp_kernel_eq_skeleton]; unfold cc1_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S128x10000.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

-- What the body finds in an input window at a point is that window's block there.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

def bodyPre1 (c : Dev nD) (t : Fin cfg1.N) : sProp 𝕄 :=
  iprop(Pipeline.ΦA spec1 c ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d)))

def bodyPost1 (c : Dev nD) (t : Fin cfg1.N) : sProp 𝕄 :=
  iprop(Pipeline.ΦA spec1 c ∗ (dat1 V c).owesAt () t.castSucc
    ∗ owns c (st1_0 t) fullShare (iblk1 V c 0 t)
    ∗ owns c (st1_1 t) fullShare (iblk1 V c 1 t)
    ∗ owns c (st1_2 t) fullShare (iblk1 V c 2 t)
    ∗ owns c (st1_3 t) fullShare (iblk1 V c 3 t)
    ∗ owns c (st1_4 t) fullShare (iblk1 V c 4 t)
    ∗ owns c (st1_5 t) fullShare ((dat1 V c).after 5 t))

-- The input buffers hold their blocks, so the body's triple applies; the invariant and what is owed pass through unread.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ _ _ _ _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
import proofs.«408609_j52080773431571_2_alg».proof.Proof.KI.R0Frame
import proofs.«408609_j52080773431571_2_alg».proof.Proof.KI.R1Frame

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

-- After region 0: each of its arrays at what the region leaves there, every other buffer as before.
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev W4 : Dev nD → Valuation τ sig (Elt F) := fun c => StableHlo.after hostOps1_1 (W3 m ρ c)

abbrev W5 : Dev nD → Valuation τ sig (Elt F) := fun c => StableHlo.after hostOps1_2 (W4 m ρ c)

abbrev V5 : (c : Dev nD) → (b : Ref sig .tc) → Buf (Elt F) ((c : Thread nD τ).loc b) := fun c b => W5 m ρ c b

-- After region 1, likewise: the contents the program ends with.
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

abbrev wr0 : List (Ref sig .tc) := [main_v0, main_v1, main_v2]

abbrev wr1 : List (Ref sig .tc) := [main_v4, main_c]

abbrev wr1_1 : List (Ref sig .tc) := [main_call0_v0, main_v5]

abbrev wr1_2 : List (Ref sig .tc) := [main_v6, main_v7, main_v8, main_v9, main_v10]

-- Every operation of the stretch `ops` writes a reference of the list `wr`.
abbrev Wr (ops : List (HloOp τ sig (Elt F))) (wr : List (Ref sig .tc)) : Prop :=
  ops.Forall fun op => op.writes ⊆ (wr.map (Proc.devRef (τ := τ) .tc)).toFinset

theorem hostOps_wr : Wr (F := F) hostOps0 wr0 ∧ Wr (F := F) hostOps1 wr1 ∧ Wr (F := F) hostOps1_1 wr1_1 ∧ Wr (F := F) hostOps1_2 wr1_2 := by
  simp only [Wr, List.Forall, StableHlo.nullary_writes, StableHlo.unary_writes, StableHlo.binary_writes, StableHlo.reshape_writes,
    Finset.singleton_subset_iff, List.mem_toFinset]
  refine ⟨⟨?_, ?_, ?_⟩, ⟨?_, ?_⟩, ⟨?_, ?_⟩, ?_, ?_, ?_, ?_, ?_⟩ <;> exact List.mem_map_of_mem (by decide)

theorem W1_of (c : Dev nD) (r : Ref sig .tc) (h : r ∉ (wr0 : List (Ref sig .tc))) :
    W1 m ρ c (Proc.devRef .tc r) = W0 m ρ c (Proc.devRef .tc r) :=
  StableHlo.after_of_writes_sub hostOps0 _ hostOps_wr.1 h

-- A reference that no host stretch writes, that region 1 has no window on and that region 0 at most reads ends as launched.
abbrev Kept (r : Ref sig .tc) : Prop :=
  (r ∉ wr0 ∧ r ∉ wr1 ∧ r ∉ wr1_1 ∧ r ∉ wr1_2) ∧ (∀ w, Pipeline.arrRef spec1 w ≠ r)
    ∧ ∀ w, Pipeline.arrRef spec0 w = r → (cfg0.win w).isOut = false

theorem W6_kept (c : Dev nD) (r : Ref sig .tc) (h : Kept r) :
    W6 m ρ c (Proc.devRef .tc r) = m ((c : Thread nD τ).loc r) := by
  obtain ⟨⟨ha, hb, hc, hd⟩, h1, h0⟩ := h
  have h2 : W2 m ρ c (Proc.devRef .tc r) = W1 m ρ c (Proc.devRef .tc r) := by
    by_cases hw : ∃ w, Pipeline.arrRef spec0 w = r
    · obtain ⟨w, rfl⟩ := hw
      exact (W2_arr m ρ c w).trans (((dat0 (V1 m ρ) c).arrAt_in w (h0 w rfl) _).trans (A_eq0 (V1 m ρ) c w))
    · exact W2_of_ne m ρ c r fun w e => hw ⟨w, e⟩
  exact (W6_of_ne m ρ c r h1).trans ((StableHlo.after_of_writes_sub hostOps1_2 _ hostOps_wr.2.2.2 hd).trans
    ((StableHlo.after_of_writes_sub hostOps1_1 _ hostOps_wr.2.2.1 hc).trans
      ((StableHlo.after_of_writes_sub hostOps1 _ hostOps_wr.2.1 hb).trans (h2.trans (W1_of m ρ c r ha)))))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes c (0 : CellTallies nD τ sig Unit) W)

abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held c (Pipeline.ucRefs τ sig) (W6 m ρ c) ∗ ∃ r, prngReg c r)

-- Region 0 as a segment from contents `W1` to `W2`: its arrays leave the unscoped buffers at entry and rejoin them at exit.
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held c (Pipeline.ucRefs τ sig) (W1 m ρ c) ∗ R c)
  post c := iprop(StableHlo.held c (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (fun b => W2 m ρ c b) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- Region 1 as a segment from contents `W5` to `W6`, in the same way.
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held c (Pipeline.ucRefs τ sig) (W5 m ρ c) ∗ R c)
  post c := iprop(Tₙ m ρ c ∗ ∃ W, owes c (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (fun b => W6 m ρ c b) ((pdats m ρ 1 c).arrAt · cfg1.N) (fun w => (W6_arr m ρ c w).symm)
      fun b hb => W6_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

-- The program's six segments in order: a host stretch, region 0, three host stretches, region 1.
abbrev segs : List (Pipeline.Seg (pcfgs (F := F)) adm (pdats m ρ) () defs₀ 𝒱₀ L lv) :=
  [ .host (hseg hostOps0 hostOps0_sub (W0 m ρ)),
    .region (reg0 m ρ),
    .host (hseg hostOps1 hostOps1_sub (W2 m ρ)),
    .host (hseg hostOps1_1 hostOps1_1_sub (W3 m ρ)),
    .host (hseg hostOps1_2 hostOps1_2_sub (W4 m ρ)),
    .region (reg1 m ρ) ]

theorem main_run (c : Dev nD) : main (F := F) c = Pipeline.Seg.run (segs m ρ) := (main_chain c).trans (by chain_rfl)

-- Every weakly fair run from launch memory `m` ends without fault with each unscoped buffer of each core at `W6`.
theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held c (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held c (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

-- At the end every unscoped buffer holds `W6`, and one that nothing writes its launch contents.
theorem run_kept : θ_run defs (onTc (τ := τ) (main (F := F))) ⟨m, fun _ => 0, ρ⟩
    (fun r => ∀ c : Dev nD, (∀ b ∈ Pipeline.ucRefs τ sig, r.2.mem ((c : Thread nD τ).1, b) = W6 m ρ c b)
      ∧ ∀ b : Ref sig .tc, ¬ (Proc.devRef .tc b : DevRef τ sig).isScoped → Kept b →
        r.2.mem ((c : Thread nD τ).loc b) = m ((c : Thread nD τ).loc b)) :=
  (θ_run defs _ _).mono (fun r h c => ⟨h c, fun b h1 h2 => (h c _ (mem_uc b h1)).trans (W6_kept m ρ c b h2)⟩) (run_all m ρ)

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev RA (a b : Nat) : Type := (⟨2, ![a, b]⟩ : Shape).Idx → EReal
abbrev WA (a b : Nat) : Type := (⟨2, ![a, b]⟩ : Shape).Idx → BitVec 32
abbrev RV (a : Nat) : Type := (⟨1, ![a]⟩ : Shape).Idx → EReal
abbrev WV (a : Nat) : Type := (⟨1, ![a]⟩ : Shape).Idx → BitVec 32

/-- The indicator that row `b`'s category word is `v`. -/
def oneHot (ci : WA 2048 1) (b : Fin 2048) (v : Fin 10000) : EReal :=
  if ci (ix2 b (0 : Fin 1)) = BitVec.ofNat 32 v.val then 1 else 0

open Classical in
/-- The indicator that one of row `b`'s eight bag words is `v`. -/
def multiHot (ix : WA 2048 8) (b : Fin 2048) (v : Fin 50000) : EReal :=
  if ∃ n : Fin 8, ix (ix2 b n) = BitVec.ofNat 32 v.val then 1 else 0

/-- The table row the category word picks, as a sum over the vocabulary. -/
def catRow (ci : WA 2048 1) (Ec : RA 10000 128) (b : Fin 2048) (s : Fin 128) : EReal :=
  ∑ v : Fin 10000, oneHot ci b v * Ec (ix2 v s)

/-- The sum of the table rows a bag's distinct words pick, plus the bag's dense row. -/
def bagRow (ix : WA 2048 8) (Eh : RA 50000 256) (top : RA 2048 256) (b : Fin 2048) (s : Fin 256) : EReal :=
  (∑ v : Fin 50000, multiHot ix b v * Eh (ix2 v s)) + top (ix2 b s)

/-- A feature row: 128 category columns, 256 + 256 bag columns, 7 indicator columns, 121 zeros. -/
def feat (ci : WA 2048 1) (hb hf : WA 2048 8) (tb tf : RA 2048 256) (d : RA 2048 7) (Ec : RA 10000 128)
    (Eh : RA 50000 256) (b : Fin 2048) (j : Fin 768) : EReal :=
  if h0 : j.val < 128 then catRow ci Ec b ⟨j.val, h0⟩
  else if h1 : j.val < 384 then bagRow hb Eh tb b ⟨j.val - 128, by omega⟩
  else if h2 : j.val < 640 then bagRow hf Eh tf b ⟨j.val - 384, by omega⟩
  else if h3 : j.val < 647 then d (ix2 b ⟨j.val - 640, by omega⟩)
  else 0

def emb (ci : WA 2048 1) (hb hf : WA 2048 8) (tb tf : RA 2048 256) (d : RA 2048 7) (Ec : RA 10000 128)
    (Eh : RA 50000 256) : RA 2048 768 :=
  fun i => feat ci hb hf tb tf d Ec Eh (i 0) (i 1)

/-- The first layer: the positive part of an affine map of the feature row. -/
def hidden (x : RA 2048 768) (w1 : RA 768 1024) (b1 : RA 1 1024) (b : Fin 2048) (h : Fin 1024) : EReal :=
  max ((∑ j : Fin 768, x (ix2 b j) * w1 (ix2 j h)) + b1 (ix2 (0 : Fin 1) h)) 0

/-- The second layer, affine in the hidden row. -/
def logit (x : RA 2048 768) (w1 : RA 768 1024) (b1 : RA 1 1024) (w2 : RA 1024 10000) (b2 : RA 1 10000)
    (b : Fin 2048) (o : Fin 10000) : EReal :=
  (∑ h : Fin 1024, hidden x w1 b1 b h * w2 (ix2 h o)) + b2 (ix2 (0 : Fin 1) o)

/-- A row minus its maximum, the maximum folded from −∞. -/
def shifted (L : Fin 10000 → EReal) (o : Fin 10000) : EReal :=
  L o - max ⊥ ((Finset.univ : Finset (Fin 10000)).fold max ⊥ L)

/-- Log-softmax: the shifted row minus the log of the sum of its exponentials. -/
def logSoftmaxRow (L : Fin 10000 → EReal) (o : Fin 10000) : EReal :=
  shifted L o - Ideal.log (∑ o' : Fin 10000, Ideal.exp (shifted L o'))

def mlp (x : RA 2048 768) (w1 : RA 768 1024) (b1 : RA 1 1024) (w2 : RA 1024 10000) (b2 : RA 1 10000) : RA 2048 10000 :=
  fun i => logSoftmaxRow (logit x w1 b1 w2 b2 (i 0)) (i 1)

def col (c1 : WV 2048) : WA 2048 1 := fun i => c1 (ix1 (i 0))
/-- The first weight matrix transposed and padded with zero rows to the feature row's 768 columns. -/
def w1pad (W1 : RA 1024 647) : RA 768 1024 :=
  fun i => if h : (i 0).val < 647 then W1 (ix2 (i 1) ⟨(i 0).val, h⟩) else 0
def w2t (W2 : RA 10000 1024) : RA 1024 10000 := fun i => W2 (ix2 (i 1) (i 0))
def row {n : Nat} (v : RV n) : RA 1 n := fun i => v (ix1 (i 1))

/-- What the program computes from its twelve arguments. -/
def result (d : RA 2048 7) (c1 : WV 2048) (hb hf : WA 2048 8) (tb tf : RA 2048 256) (Ec : RA 10000 128)
    (Eh : RA 50000 256) (W1 : RA 1024 647) (b1 : RV 1024) (W2 : RA 10000 1024) (b2 : RV 10000) : RA 2048 10000 :=
  mlp (emb (col c1) hb hf tb tf d Ec Eh) (w1pad W1) (row b1) (w2t W2) (row b2)

/-- Every word, read signed, lies in `[0, N)`. -/
def InRange {a b : Nat} (N : Nat) (ix : (⟨2, ![a, b]⟩ : Shape).Idx → BitVec 32) : Prop :=
  ∀ i, 0 ≤ (ix i).toInt ∧ (ix i).toInt < N
def InRangeV {a : Nat} (N : Nat) (ix : (⟨1, ![a]⟩ : Shape).Idx → BitVec 32) : Prop :=
  ∀ i, 0 ≤ (ix i).toInt ∧ (ix i).toInt < N

end Cert.Spec

end
-- ==== Proof.KI.R0Pay.lean ====
import proofs.«408609_j52080773431571_2_alg».proof.Proof.Gen.KernelIdeal.Skeleton
import proofs.«408609_j52080773431571_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

namespace Cert.KernelIdeal.Val0

open Cert.KernelIdeal Cert.KernelIdeal.Gen Idealize.ShloMosaic Idealize.ShloMosaic.ValueIdx Idealize.SL.Sem

theorem word_tile (k j T : Nat) : BitVec.ofNat 32 j + BitVec.ofNat 32 k * BitVec.ofNat 32 T = BitVec.ofNat 32 (T * k + j) := by
  rw [← BitVec.ofNat_mul, ← BitVec.ofNat_add, Nat.mul_comm, Nat.add_comm]

theorem cmp_bit (a b : BitVec 32) : IntOp.cmpi .eq a b = 1#1 ↔ a = b := by
  by_cases h : a = b
  · subst h; simp [IntOp.cmpi]
  · have hb : (a == b) = false := by simpa using h
    simp [IntOp.cmpi, hb, h]

theorem or_bit (a b : BitVec 1) : IntOp.ori a b = 1#1 ↔ a = 1#1 ∨ b = 1#1 := by
  rcases BitVec.eq_zero_or_eq_one a with rfl | rfl <;> rcases BitVec.eq_zero_or_eq_one b with rfl | rfl <;> decide

theorem ori_bit {s : Shape} (a b : IVec s 1) (x : s.Idx) : ori a b x = 1#1 ↔ a x = 1#1 ∨ b x = 1#1 := or_bit _ _

/-- A bit mask widened, converted and narrowed is 1 where the bit is set, else 0. -/
theorem mask_val {s : Shape} (X : IVec s 1) (x : s.Idx) :
    (truncf .bf16 (sitofp (F := Ideal) .f32 (extui 32 X natLt_1_32)) bitsLt_bf16_f32 : FVec Ideal s .bf16) x
      = if X x = 1#1 then 1 else 0 := by
  show ((((X x).setWidth 32).toInt : ℝ) : EReal) = _
  rcases BitVec.eq_zero_or_eq_one (X x) with h | h <;> simp [h]

/-- Adding to c the plain product of a bit mask with a table, at (p, q): c there plus the table's entries where the mask is set. -/
theorem mask_mm {M K N : ℕ} (X : IVec ⟨2, ![M, K]⟩ 1) (t : FVec Ideal ⟨2, ![K, N]⟩ .bf16) (c : FVec Ideal ⟨2, ![M, N]⟩ .f32)
    (p : Fin M) (q : Fin N) :
    addf c (matmul (DotDims.plain M K N) none (truncf .bf16 (sitofp .f32 (extui 32 X natLt_1_32)) bitsLt_bf16_f32) t
        (constant ⟨2, ![M, N]⟩ .f32 0x00000000#32)) (ix2 p q)
      = c (ix2 p q) + ∑ j : Fin K, (if X (ix2 p j) = 1#1 then (1 : EReal) else 0) * t (ix2 j q) :=
  congrArg (c (ix2 p q) + ·) (((congrFun (matmul_zero_eq_dotGeneral _ none _ t) _).trans
    (StackMember.dotGeneral_plain_apply none _ t p q)).trans
    (Finset.sum_congr rfl fun j _ => congrArg (· * t (ix2 j q)) (mask_val X _)))

/-- A column broadcast along the lanes reads the column's entry of the row. -/
theorem bcast_col {b : ℕ} {α : Type} (v : S512x1.Idx → α) (h : S512x1.Broadcasts ⟨2, ![512, b]⟩)
    (p : Fin 512) (j : Fin b) : broadcastTo ⟨2, ![512, b]⟩ v h (ix2 p j) = v (ix2 p (0 : Fin 1)) :=
  broadcastTo_apply v h (ix2 p j) (ix2 p (0 : Fin 1)) (fun d => by
    match d with
    | ⟨0, _⟩ => rfl
    | ⟨1, _⟩ => rfl)

theorem iota_col {a b : ℕ} (h : (⟨2, ![a, b]⟩ : Shape).Iotas .tc 32 [1]) (p : Fin a) (j : Fin b) :
    iota .tc ⟨2, ![a, b]⟩ 32 [1] h (ix2 p j) = BitVec.ofNat 32 j.val := iota_single_apply .tc _ 32 1 h (ix2 p j)

/-- Lane j of grid step k holds the vocabulary position 2000·k + j. -/
theorem pay9_apply (i : grid0.Coords) (p : Fin 512) (j : Fin 2000) :
    k0_pay9 i (ix2 p j) = BitVec.ofNat 32 (2000 * (i 1).val + j.val) := by
  unfold k0_pay9
  show iota .tc S512x2000 32 [1] iota_S512x2000_d1_w32 (ix2 p j) + BitVec.ofNat 32 (i 1).val * BitVec.ofNat 32 2000 = _
  rw [iota_col, word_tile]

theorem pay10_apply (i : grid0.Coords) (v11 : Vec Ideal S512x1 .i32) (v18 : Vec Ideal S400x128 .bf16) (v21 : Vec Ideal S512x128 .f32)
    (p : Fin 512) (q : Fin 128) :
    k0_pay10 (F := Ideal) i v11 v18 v21 (ix2 p q)
      = v21 (ix2 p q) + ∑ j : Fin 400, (if v11 (ix2 p (0 : Fin 1)) = BitVec.ofNat 32 (400 * (i 1).val + j.val) then (1 : EReal) else 0) * v18 (ix2 j q) := by
  unfold k0_pay10
  simp only [shapeCast_self]
  refine (mask_mm (M := 512) (K := 400) (N := 128) _ v18 v21 p q).trans (congrArg (v21 (ix2 p q) + ·)
    (Finset.sum_congr rfl fun j _ => congrArg (· * v18 (ix2 j q)) (if_congr ?_ rfl rfl)))
  show IntOp.cmpi .eq (broadcastTo S512x400 v11 broadcasts_S512x1_S512x400 (ix2 p j))
    (iota .tc S512x400 32 [1] iota_S512x400_d1_w32 (ix2 p j) + BitVec.ofNat 32 (i 1).val * BitVec.ofNat 32 400) = 1#1 ↔ _
  rw [bcast_col, iota_col, word_tile]
  exact cmp_bit _ _

/-- The comparison bit of a broadcast word column is set exactly where the row's word equals the lane's entry. -/
theorem col_bit (v : Vec Ideal S512x1 .i32) (v10 : IVec S512x2000 32) (p : Fin 512) (j : Fin 2000) :
    cmpi .eq (broadcastTo S512x2000 v broadcasts_S512x1_S512x2000) v10 (ix2 p j) = 1#1 ↔ v (ix2 p (0 : Fin 1)) = v10 (ix2 p j) := by
  show IntOp.cmpi .eq (broadcastTo S512x2000 v broadcasts_S512x1_S512x2000 (ix2 p j)) (v10 (ix2 p j)) = 1#1 ↔ _
  rw [bcast_col]
  exact cmp_bit _ _

theorem bag1_apply (i : grid0.Coords) (v26 v29 v33 v37 v41 v45 v49 v53 : Vec Ideal S512x1 .i32)
    (v60 : Vec Ideal S2000x256 .bf16) (v63 : Vec Ideal S512x256 .f32) (p : Fin 512) (q : Fin 256) :
    k0_pay12 (F := Ideal) (k0_pay9 i) (k0_pay11 (F := Ideal) i v26 v29 v33) v37 v41 v45 v49 v53 v60 v63 (ix2 p q)
      = v63 (ix2 p q) + ∑ j : Fin 2000,
          (if (v26 (ix2 p (0 : Fin 1)) = BitVec.ofNat 32 (2000 * (i 1).val + j.val)
              ∨ v29 (ix2 p (0 : Fin 1)) = BitVec.ofNat 32 (2000 * (i 1).val + j.val)
              ∨ v33 (ix2 p (0 : Fin 1)) = BitVec.ofNat 32 (2000 * (i 1).val + j.val)
              ∨ v37 (ix2 p (0 : Fin 1)) = BitVec.ofNat 32 (2000 * (i 1).val + j.val)
              ∨ v41 (ix2 p (0 : Fin 1)) = BitVec.ofNat 32 (2000 * (i 1).val + j.val)
              ∨ v45 (ix2 p (0 : Fin 1)) = BitVec.ofNat 32 (2000 * (i 1).val + j.val)
              ∨ v49 (ix2 p (0 : Fin 1)) = BitVec.ofNat 32 (2000 * (i 1).val + j.val)
              ∨ v53 (ix2 p (0 : Fin 1)) = BitVec.ofNat 32 (2000 * (i 1).val + j.val)) then (1 : EReal) else 0) * v60 (ix2 j q) := by
  unfold k0_pay12 k0_pay11
  simp only [shapeCast_self]
  refine (mask_mm (M := 512) (K := 2000) (N := 256) _ v60 v63 p q).trans (congrArg (v63 (ix2 p q) + ·)
    (Finset.sum_congr rfl fun j _ => congrArg (· * v60 (ix2 j q)) (if_congr ?_ rfl rfl)))
  simp only [ori_bit, col_bit, pay9_apply, or_assoc]

theorem bag2_apply (i : grid0.Coords) (v68 v71 v75 v79 v83 v87 v91 v95 : Vec Ideal S512x1 .i32)
    (v102 : Vec Ideal S2000x256 .bf16) (v105 : Vec Ideal S512x256 .f32) (p : Fin 512) (q : Fin 256) :
    k0_pay14 (F := Ideal) (k0_pay9 i) (k0_pay13 (F := Ideal) (k0_pay9 i) v68 v71) v75 v79 v83 v87 v91 v95 v102 v105 (ix2 p q)
      = v105 (ix2 p q) + ∑ j : Fin 2000,
          (if (v68 (ix2 p (0 : Fin 1)) = BitVec.ofNat 32 (2000 * (i 1).val + j.val)
              ∨ v71 (ix2 p (0 : Fin 1)) = BitVec.ofNat 32 (2000 * (i 1).val + j.val)
              ∨ v75 (ix2 p (0 : Fin 1)) = BitVec.ofNat 32 (2000 * (i 1).val + j.val)
              ∨ v79 (ix2 p (0 : Fin 1)) = BitVec.ofNat 32 (2000 * (i 1).val + j.val)
              ∨ v83 (ix2 p (0 : Fin 1)) = BitVec.ofNat 32 (2000 * (i 1).val + j.val)
              ∨ v87 (ix2 p (0 : Fin 1)) = BitVec.ofNat 32 (2000 * (i 1).val + j.val)
              ∨ v91 (ix2 p (0 : Fin 1)) = BitVec.ofNat 32 (2000 * (i 1).val + j.val)
              ∨ v95 (ix2 p (0 : Fin 1)) = BitVec.ofNat 32 (2000 * (i 1).val + j.val)) then (1 : EReal) else 0) * v102 (ix2 j q) := by
  unfold k0_pay14 k0_pay13
  simp only [shapeCast_self]
  refine (mask_mm (M := 512) (K := 2000) (N := 256) _ v102 v105 p q).trans (congrArg (v105 (ix2 p q) + ·)
    (Finset.sum_congr rfl fun j _ => congrArg (· * v102 (ix2 j q)) (if_congr ?_ rfl rfl)))
  simp only [ori_bit, col_bit, pay9_apply, or_assoc]

theorem pay5_apply (x : S512x121.Idx) : k0_pay5 (F := Ideal) x = 0 := Ideal.ofBits_zero_bf16

/-- A zero splat under the identity shape cast reads zero. -/
theorem zeros_apply {s : Shape} (h : s.ShapeCasts s) (x : s.Idx) :
    shapeCast s (broadcast s (Scalar.ofBits (F := Ideal) .f32 0x00000000#32)) h x = 0 := by
  rw [shapeCast_self]
  exact Ideal.ofBits_zero_f32
theorem pay6_apply (x : S512x128.Idx) : k0_pay6 (F := Ideal) x = 0 := zeros_apply _ x
theorem pay7_apply (x : S512x256.Idx) : k0_pay7 (F := Ideal) x = 0 := zeros_apply _ x
theorem pay8_apply (x : S512x256.Idx) : k0_pay8 (F := Ideal) x = 0 := zeros_apply _ x

/-- Summing tile by tile, T entries a tile, is summing over all K·T entries. -/
theorem sum_tiles {M : Type*} [AddCommMonoid M] (T : ℕ) (f : ℕ → M) :
    ∀ K : ℕ, ∑ s ∈ Finset.range K, ∑ j : Fin T, f (T * s + j.val) = ∑ n ∈ Finset.range (K * T), f n
  | 0 => by simp
  | K + 1 => by
    rw [Finset.sum_range_succ, sum_tiles T f K, Nat.succ_mul, Finset.sum_range_add, Fin.sum_univ_eq_sum_range (fun x => f (T * K + x)) T,
      Nat.mul_comm T K]

end Cert.KernelIdeal.Val0

end
-- ==== Proof.KI.R0Tiles.lean ====
import proofs.«408609_j52080773431571_2_alg».proof.Proof.KI.R0Pay

noncomputable section

namespace Cert.KernelIdeal.Val0

open Idealize.ShloMosaic Idealize.ShloMosaic.ValueIdx

/-- The n-th summand of the category row, extended by zero beyond the table. -/
def catTerm (ci : Spec.WA 2048 1) (Ec : Spec.RA 10000 128) (b : Fin 2048) (q : Fin 128) (n : ℕ) : EReal :=
  if h : n < 10000 then Spec.oneHot ci b ⟨n, h⟩ * Ec (ix2 ⟨n, h⟩ q) else 0

/-- The n-th summand of a bag's row, extended by zero beyond the table. -/
def bagTerm (ix : Spec.WA 2048 8) (Eh : Spec.RA 50000 256) (b : Fin 2048) (q : Fin 256) (n : ℕ) : EReal :=
  if h : n < 50000 then Spec.multiHot ix b ⟨n, h⟩ * Eh (ix2 ⟨n, h⟩ q) else 0

theorem catRow_eq_range (ci : Spec.WA 2048 1) (Ec : Spec.RA 10000 128) (b : Fin 2048) (q : Fin 128) :
    Spec.catRow ci Ec b q = ∑ n ∈ Finset.range (25 * 400), catTerm ci Ec b q n :=
  Finset.sum_fin_eq_sum_range fun v => Spec.oneHot ci b v * Ec (ix2 v q)

theorem bagRow_eq_range (ix : Spec.WA 2048 8) (Eh : Spec.RA 50000 256) (top : Spec.RA 2048 256) (b : Fin 2048) (q : Fin 256) :
    Spec.bagRow ix Eh top b q = (∑ n ∈ Finset.range (25 * 2000), bagTerm ix Eh b q n) + top (ix2 b q) :=
  congrArg (· + top (ix2 b q)) (Finset.sum_fin_eq_sum_range fun v => Spec.multiHot ix b v * Eh (ix2 v q))

/-- One tile's one-hot product is the matching stretch of 400 summands of the category row. -/
theorem cat_tile (ci : Spec.WA 2048 1) (Ec : Spec.RA 10000 128) (b : Fin 2048) (q : Fin 128) (s : ℕ) (hs : s < 25)
    (w : BitVec 32) (hw : w = ci (ix2 b (0 : Fin 1))) (tile : Fin 400 → EReal)
    (ht : ∀ j : Fin 400, tile j = Ec (ix2 (⟨400 * s + j.val, by have := j.isLt; omega⟩ : Fin 10000) q)) :
    ∑ j : Fin 400, (if w = BitVec.ofNat 32 (400 * s + j.val) then (1 : EReal) else 0) * tile j
      = ∑ j : Fin 400, catTerm ci Ec b q (400 * s + j.val) := by
  subst hw
  refine Finset.sum_congr rfl fun j _ => ?_
  rw [catTerm, dif_pos (by have := j.isLt; omega), ht j]
  rfl

/-- Over a row's eight positions, "some position" is the eight-fold alternative. -/
theorem exists_fin8 {P : Fin 8 → Prop} : (∃ n, P n) ↔ P 0 ∨ P 1 ∨ P 2 ∨ P 3 ∨ P 4 ∨ P 5 ∨ P 6 ∨ P 7 := by
  simp only [Fin.exists_fin_succ, IsEmpty.exists_iff, or_false]
  exact Iff.rfl

/-- One tile's multi-hot product is the matching stretch of 2000 summands of the bag's row. -/
theorem bag_tile (ix : Spec.WA 2048 8) (Eh : Spec.RA 50000 256) (b : Fin 2048) (q : Fin 256) (s : ℕ) (hs : s < 25)
    (w0 w1 w2 w3 w4 w5 w6 w7 : BitVec 32)
    (h0 : w0 = ix (ix2 b (0 : Fin 8))) (h1 : w1 = ix (ix2 b (1 : Fin 8))) (h2 : w2 = ix (ix2 b (2 : Fin 8))) (h3 : w3 = ix (ix2 b (3 : Fin 8)))
    (h4 : w4 = ix (ix2 b (4 : Fin 8))) (h5 : w5 = ix (ix2 b (5 : Fin 8))) (h6 : w6 = ix (ix2 b (6 : Fin 8))) (h7 : w7 = ix (ix2 b (7 : Fin 8)))
    (tile : Fin 2000 → EReal)
    (ht : ∀ j : Fin 2000, tile j = Eh (ix2 (⟨2000 * s + j.val, by have := j.isLt; omega⟩ : Fin 50000) q)) :
    ∑ j : Fin 2000, (if (w0 = BitVec.ofNat 32 (2000 * s + j.val) ∨ w1 = BitVec.ofNat 32 (2000 * s + j.val) ∨ w2 = BitVec.ofNat 32 (2000 * s + j.val) ∨ w3 = BitVec.ofNat 32 (2000 * s + j.val) ∨ w4 = BitVec.ofNat 32 (2000 * s + j.val) ∨ w5 = BitVec.ofNat 32 (2000 * s + j.val) ∨ w6 = BitVec.ofNat 32 (2000 * s + j.val) ∨ w7 = BitVec.ofNat 32 (2000 * s + j.val)) then (1 : EReal) else 0) * tile j
      = ∑ j : Fin 2000, bagTerm ix Eh b q (2000 * s + j.val) := by
  subst h0 h1 h2 h3 h4 h5 h6 h7
  refine Finset.sum_congr rfl fun j _ => ?_
  rw [bagTerm, dif_pos (by have := j.isLt; omega), ht j, Spec.multiHot]
  exact congrArg (· * _) (ite_congr (propext (exists_fin8 (P := fun n => ix (ix2 b n) = BitVec.ofNat 32 (2000 * s + j.val)))) (fun _ => rfl) fun _ => rfl).symm

end Cert.KernelIdeal.Val0

end
-- ==== Proof.KI.R0Cover.lean ====
import proofs.«408609_j52080773431571_2_alg».proof.Proof.Gen.KernelIdeal.Launch
import proofs.«408609_j52080773431571_2_alg».proof.Proof.Gen.KernelIdeal.Points
import Idealize.ShloMosaic.Lib.Pipeline.Value
import Idealize.ShloMosaic.Lib.ValueIdx

noncomputable section

namespace Cert.KernelIdeal.Val0

open Idealize.ShloMosaic Idealize.ShloMosaic.TcCoe Idealize.ShloMosaic.ValueIdx Idealize.SL.Sem
open Idealize.ShloMosaic.Pipeline (Dat)
open Cert.KernelIdeal Cert.KernelIdeal.Gen

theorem idx_facts8 : ∀ t : Fin grid0.N, win0_8.index t (0 : Fin 2) = t.val / 25 ∧ win0_8.index t (1 : Fin 2) = 0 := by
  decide +kernel

theorem mem_blk8_iff (t : Fin cfg0.N) (i : S2048x768.Idx) :
    i ∈ ((cfg0.win 8).blk t).view.set ↔ 512 * (t.val / 25) ≤ (i 0).val ∧ (i 0).val < 512 * (t.val / 25) + 512 := by
  show i ∈ ((View.whole main_v3).slice (win0_8.rect t)).set ↔ _
  rw [View.set_slice_whole, Rect.mem_set_unit]
  obtain ⟨e0, e1⟩ := idx_facts8 t
  have hi1 : (i 1).val < 768 := (i 1).isLt
  constructor
  · intro h
    have b0 : win0_8.index t (0 : Fin 2) * 512 ≤ (i 0).val ∧ (i 0).val < win0_8.index t (0 : Fin 2) * 512 + 512 := h 0
    omega
  · intro h a
    match a with
    | ⟨0, _⟩ =>
      show win0_8.index t (0 : Fin 2) * 512 ≤ (i 0).val ∧ (i 0).val < win0_8.index t (0 : Fin 2) * 512 + 512
      omega
    | ⟨1, _⟩ =>
      show win0_8.index t (1 : Fin 2) * 768 ≤ (i 1).val ∧ (i 1).val < win0_8.index t (1 : Fin 2) * 768 + 768
      omega

theorem emb8_lt (t : Fin cfg0.N) (y : S512x768.Idx) : 512 * (t.val / 25) + (y 0).val < 2048 := by
  have ht : t.val < 100 := lt_of_lt_of_eq t.isLt (show cfg0.N = 100 from N_0)
  have hy : (y 0).val < 512 := (y 0).isLt
  omega

theorem emb8 (t : Fin cfg0.N) (y : S512x768.Idx) :
    ((cfg0.win 8).blk t).view.emb y = ix2 (⟨512 * (t.val / 25) + (y 0).val, emb8_lt t y⟩ : Fin 2048) (y 1) := by
  obtain ⟨e0, e1⟩ := idx_facts8 t
  refine Shape.idx_ext₂ ?_ ?_
  · show win0_8.index t (0 : Fin 2) * 512 + 1 * (y 0).val = 512 * (t.val / 25) + (y 0).val; omega
  · show win0_8.index t (1 : Fin 2) * 768 + 1 * (y 1).val = (y 1).val; omega

/-- The witness for row r is the point 25·(r / 512) + 24, the last of r's chunk. -/
theorem cover8 (i : S2048x768.Idx) :
    ∃ t : Fin cfg0.N, (cfg0.win 8).flush t = true ∧ i ∈ ((cfg0.win 8).blk t).view.set := by
  have hi0 : (i 0).val < 2048 := (i 0).isLt
  have hN : cfg0.N = 100 := N_0
  obtain ⟨t, ht⟩ : ∃ t : Fin cfg0.N, t.val = 25 * ((i 0).val / 512) + 24 := ⟨⟨_, by rw [hN]; omega⟩, rfl⟩
  refine ⟨t, (flush0_8 t).2 (by omega), ?_⟩
  rw [mem_blk8_iff]
  omega

theorem arrAt0_of_flushed (c : Dev nD) (dat : Dat τ (Elt Ideal) Unit ℕ (UR sig nD τ) ℕ cfg0 c) (G : S2048x768.Idx → EReal)
    (hfl : ∀ t : Fin cfg0.N, t.val % 25 = 24 → dat.flushed 8 t = ((cfg0.win 8).blk t).view.read (Elt Ideal) G) :
    (dat.arrAt 8 cfg0.N : S2048x768.Idx → EReal) = G :=
  dat.arrAt_eq_of_cover 8 G (fun t hf => hfl t ((flush0_8 t).1 hf)) cover8

end Cert.KernelIdeal.Val0
-- ==== Proof.KI.R0Blocks.lean ====
import proofs.«408609_j52080773431571_2_alg».proof.Proof.KI.R0Frame
import proofs.«408609_j52080773431571_2_alg».proof.Proof.Spec
import Idealize.ShloMosaic.Lib.Pipeline.Value
import Idealize.ShloMosaic.Lib.ValueIdx

noncomputable section

namespace Cert.KernelIdeal.Val0

open Idealize.ShloMosaic Idealize.ShloMosaic.TcCoe Idealize.ShloMosaic.ValueIdx Idealize.SL.Sem
open Cert.KernelIdeal Cert.KernelIdeal.Gen Cert.KernelIdeal.Fr

variable {F : FTy → Type} [FloatOps F]

variable (V : (c : Dev nD) → (b : Ref sig .tc) → Buf (Elt F) ((c : Thread nD τ).loc b))

theorem idx_facts_in : ∀ t : Fin grid0.N,
    (win0_0.index t (0 : Fin 2) = t.val / 25 ∧ win0_0.index t (1 : Fin 2) = 0)
    ∧ (win0_1.index t (0 : Fin 2) = t.val / 25 ∧ win0_1.index t (1 : Fin 2) = 0)
    ∧ (win0_2.index t (0 : Fin 2) = t.val / 25 ∧ win0_2.index t (1 : Fin 2) = 0)
    ∧ (win0_3.index t (0 : Fin 2) = t.val / 25 ∧ win0_3.index t (1 : Fin 2) = 0)
    ∧ (win0_4.index t (0 : Fin 2) = t.val / 25 ∧ win0_4.index t (1 : Fin 2) = 0)
    ∧ (win0_5.index t (0 : Fin 2) = t.val / 25 ∧ win0_5.index t (1 : Fin 2) = 0)
    ∧ (win0_6.index t (0 : Fin 2) = t.val % 25 ∧ win0_6.index t (1 : Fin 2) = 0)
    ∧ (win0_7.index t (0 : Fin 2) = t.val % 25 ∧ win0_7.index t (1 : Fin 2) = 0)
    ∧ ((grid0.coords t) 1).val = t.val % 25 := by
  decide +kernel

theorem coord1 (t : Fin cfg0.N) : ((grid0.coords t) 1).val = t.val % 25 := (idx_facts_in t).2.2.2.2.2.2.2.2

theorem row_lt (t : Fin cfg0.N) (p : Fin 512) : 512 * (t.val / 25) + p.val < 2048 := by
  have ht : t.val < 100 := lt_of_lt_of_eq t.isLt (show cfg0.N = 100 from N_0)
  have hp := p.isLt
  omega

theorem crow_lt (t : Fin cfg0.N) (j : Fin 400) : 400 * (t.val % 25) + j.val < 10000 := by
  have hj := j.isLt
  have := Nat.mod_lt t.val (show 0 < 25 by omega)
  omega

theorem brow_lt (t : Fin cfg0.N) (j : Fin 2000) : 2000 * (t.val % 25) + j.val < 50000 := by
  have hj := j.isLt
  have := Nat.mod_lt t.val (show 0 < 25 by omega)
  omega

/-- The block's offset plus the index, coordinate by coordinate. -/
theorem blk0 (c : Dev nD) (t : Fin cfg0.N) (p : Fin 512) :
    (iblk0 V c 0 t : Vec F S512x1 .i32) (ix2 p (0 : Fin 1))
      = V c main_v0 (ix2 (⟨512 * (t.val / 25) + p.val, row_lt t p⟩ : Fin 2048) (0 : Fin 1)) := by
  obtain ⟨e0, e1⟩ := (idx_facts_in t).1
  show V c main_v0 (((cfg0.win 0).blk t).view.emb (ix2 p (0 : Fin 1))) = _
  refine congrArg _ (Shape.idx_ext₂ ?_ ?_)
  · show win0_0.index t (0 : Fin 2) * 512 + 1 * p.val = 512 * (t.val / 25) + p.val; omega
  · show win0_0.index t (1 : Fin 2) * 1 + 1 * 0 = 0; omega

theorem blk1 (c : Dev nD) (t : Fin cfg0.N) (p : Fin 512) (n : Fin 8) :
    (iblk0 V c 1 t : Vec F S512x8 .i32) (ix2 p n)
      = V c main_arg2 (ix2 (⟨512 * (t.val / 25) + p.val, row_lt t p⟩ : Fin 2048) n) := by
  obtain ⟨e0, e1⟩ := (idx_facts_in t).2.1
  show V c main_arg2 (((cfg0.win 1).blk t).view.emb (ix2 p n)) = _
  refine congrArg _ (Shape.idx_ext₂ ?_ ?_)
  · show win0_1.index t (0 : Fin 2) * 512 + 1 * p.val = 512 * (t.val / 25) + p.val; omega
  · show win0_1.index t (1 : Fin 2) * 8 + 1 * n.val = n.val; omega

theorem blk2 (c : Dev nD) (t : Fin cfg0.N) (p : Fin 512) (n : Fin 8) :
    (iblk0 V c 2 t : Vec F S512x8 .i32) (ix2 p n)
      = V c main_arg3 (ix2 (⟨512 * (t.val / 25) + p.val, row_lt t p⟩ : Fin 2048) n) := by
  obtain ⟨e0, e1⟩ := (idx_facts_in t).2.2.1
  show V c main_arg3 (((cfg0.win 2).blk t).view.emb (ix2 p n)) = _
  refine congrArg _ (Shape.idx_ext₂ ?_ ?_)
  · show win0_2.index t (0 : Fin 2) * 512 + 1 * p.val = 512 * (t.val / 25) + p.val; omega
  · show win0_2.index t (1 : Fin 2) * 8 + 1 * n.val = n.val; omega

theorem blk3 (c : Dev nD) (t : Fin cfg0.N) (p : Fin 512) (q : Fin 256) :
    (iblk0 V c 3 t : Vec F S512x256 .f32) (ix2 p q)
      = V c main_arg4 (ix2 (⟨512 * (t.val / 25) + p.val, row_lt t p⟩ : Fin 2048) q) := by
  obtain ⟨e0, e1⟩ := (idx_facts_in t).2.2.2.1
  show V c main_arg4 (((cfg0.win 3).blk t).view.emb (ix2 p q)) = _
  refine congrArg _ (Shape.idx_ext₂ ?_ ?_)
  · show win0_3.index t (0 : Fin 2) * 512 + 1 * p.val = 512 * (t.val / 25) + p.val; omega
  · show win0_3.index t (1 : Fin 2) * 256 + 1 * q.val = q.val; omega

theorem blk4 (c : Dev nD) (t : Fin cfg0.N) (p : Fin 512) (q : Fin 256) :
    (iblk0 V c 4 t : Vec F S512x256 .f32) (ix2 p q)
      = V c main_arg5 (ix2 (⟨512 * (t.val / 25) + p.val, row_lt t p⟩ : Fin 2048) q) := by
  obtain ⟨e0, e1⟩ := (idx_facts_in t).2.2.2.2.1
  show V c main_arg5 (((cfg0.win 4).blk t).view.emb (ix2 p q)) = _
  refine congrArg _ (Shape.idx_ext₂ ?_ ?_)
  · show win0_4.index t (0 : Fin 2) * 512 + 1 * p.val = 512 * (t.val / 25) + p.val; omega
  · show win0_4.index t (1 : Fin 2) * 256 + 1 * q.val = q.val; omega

theorem blk5 (c : Dev nD) (t : Fin cfg0.N) (p : Fin 512) (s : Fin 7) :
    (iblk0 V c 5 t : Vec F S512x7 .f32) (ix2 p s)
      = V c main_arg0 (ix2 (⟨512 * (t.val / 25) + p.val, row_lt t p⟩ : Fin 2048) s) := by
  obtain ⟨e0, e1⟩ := (idx_facts_in t).2.2.2.2.2.1
  show V c main_arg0 (((cfg0.win 5).blk t).view.emb (ix2 p s)) = _
  refine congrArg _ (Shape.idx_ext₂ ?_ ?_)
  · show win0_5.index t (0 : Fin 2) * 512 + 1 * p.val = 512 * (t.val / 25) + p.val; omega
  · show win0_5.index t (1 : Fin 2) * 7 + 1 * s.val = s.val; omega

theorem blk6 (c : Dev nD) (t : Fin cfg0.N) (j : Fin 400) (q : Fin 128) :
    (iblk0 V c 6 t : Vec F S400x128 .bf16) (ix2 j q)
      = V c main_v1 (ix2 (⟨400 * (t.val % 25) + j.val, crow_lt t j⟩ : Fin 10000) q) := by
  obtain ⟨e0, e1⟩ := (idx_facts_in t).2.2.2.2.2.2.1
  show V c main_v1 (((cfg0.win 6).blk t).view.emb (ix2 j q)) = _
  refine congrArg _ (Shape.idx_ext₂ ?_ ?_)
  · show win0_6.index t (0 : Fin 2) * 400 + 1 * j.val = 400 * (t.val % 25) + j.val; omega
  · show win0_6.index t (1 : Fin 2) * 128 + 1 * q.val = q.val; omega

theorem blk7 (c : Dev nD) (t : Fin cfg0.N) (j : Fin 2000) (q : Fin 256) :
    (iblk0 V c 7 t : Vec F S2000x256 .bf16) (ix2 j q)
      = V c main_v2 (ix2 (⟨2000 * (t.val % 25) + j.val, brow_lt t j⟩ : Fin 50000) q) := by
  obtain ⟨e0, e1⟩ := (idx_facts_in t).2.2.2.2.2.2.2.1
  show V c main_v2 (((cfg0.win 7).blk t).view.emb (ix2 j q)) = _
  refine congrArg _ (Shape.idx_ext₂ ?_ ?_)
  · show win0_7.index t (0 : Fin 2) * 2000 + 1 * j.val = 2000 * (t.val % 25) + j.val; omega
  · show win0_7.index t (1 : Fin 2) * 256 + 1 * q.val = q.val; omega

theorem col (x : Vec F S512x8 .i32) (p : Fin 512) (k : ℕ) (hk : k < 8)
    (h : ∀ a, (![0, k] : Fin 2 → Nat) a + S512x1.size a ≤ S512x8.size a) :
    View.ld x (Rect.unit (s := S512x8) ![0, k] S512x1.size h) (ix2 p (0 : Fin 1)) = x (ix2 p (⟨k, hk⟩ : Fin 8)) := by
  show x _ = x _
  refine congrArg _ (Shape.idx_ext₂ ?_ ?_)
  · show 0 + 1 * p.val = p.val; omega
  · show k + 1 * 0 = k; omega

end Cert.KernelIdeal.Val0
-- ==== Proof.KI.R0Out.lean ====
import proofs.«408609_j52080773431571_2_alg».proof.Proof.KI.R0Pay

noncomputable section

namespace Cert.KernelIdeal.Val0

open Cert.KernelIdeal Cert.KernelIdeal.Gen Idealize.ShloMosaic Idealize.ShloMosaic.ValueIdx Idealize.SL.Sem

/-- The column ranges the five stores write. -/
abbrev rc0 : Rect S512x768 := Rect.unit (s := S512x768) ![0, 0] S512x128.size inb_S512x768_S512x128_0_0
abbrev rc128 : Rect S512x768 := Rect.unit (s := S512x768) ![0, 128] S512x256.size inb_S512x768_S512x256_0_128
abbrev rc384 : Rect S512x768 := Rect.unit (s := S512x768) ![0, 384] S512x256.size inb_S512x768_S512x256_0_384
abbrev rc640 : Rect S512x768 := Rect.unit (s := S512x768) ![0, 640] S512x7.size inb_S512x768_S512x7_0_640
abbrev rc647 : Rect S512x768 := Rect.unit (s := S512x768) ![0, 647] S512x121.size inb_S512x768_S512x121_0_647

section Col
variable {n o : ℕ} {inb : ∀ a, (![0, o] : Fin 2 → ℕ) a + (![512, n] : Fin 2 → ℕ) a ≤ S512x768.size a}
  {w : (Rect.unit (s := S512x768) ![0, o] ![512, n] inb).shape.Idx → Elt Ideal .bf16}
  {L : List (View.Piece (Elt Ideal) S512x768 .bf16)} {p : Fin 512} {j : Fin 768} {z : EReal}

/-- A whole-height piece of columns o to o + n leaves a column outside that range as the earlier stores left it. -/
theorem col_skip (h : j.val < o ∨ o + n ≤ j.val) (hz : View.canon (Val := Elt Ideal) L (ix2 p j) = z) :
    View.canon (Val := Elt Ideal) (⟨Rect.unit ![0, o] ![512, n] inb, w⟩ :: L) (ix2 p j) = z := by
  refine (View.canon_cons_of_not_mem _ _ fun hm => ?_).trans hz
  have := (Rect.mem_set_unit (inb := inb)).mp hm 1
  change o ≤ j.val ∧ j.val < o + n at this
  omega

/-- At column o + c the block holds the last store's payload at column c. -/
theorem col_hit (c : Fin n) (h : j.val = o + c.val) (hz : w (ix2 p c) = z) :
    View.canon (Val := Elt Ideal) (⟨Rect.unit ![0, o] ![512, n] inb, w⟩ :: L) (ix2 p j) = z := by
  have e : ix2 p j = (Rect.unit (s := S512x768) ![0, o] ![512, n] inb).emb (ix2 p c) :=
    Shape.idx_ext₂ (by show p.val = 0 + 1 * p.val; omega) (by show j.val = o + 1 * c.val; omega)
  rw [e, View.canon_cons_emb]
  exact hz

end Col

/-- With the accumulators at the category row and the bags' sums, row p of the block the five stores leave is feature row b. -/
theorem out_pieces_feat (a0 : Vec Ideal S512x128 .f32) (a1 a2 d1 d2 : Vec Ideal S512x256 .f32) (x5 : Vec Ideal S512x7 .f32) (p : Fin 512)
    (ci : Spec.WA 2048 1) (hb hf : Spec.WA 2048 8) (tb tf : Spec.RA 2048 256) (d : Spec.RA 2048 7)
    (Ec : Spec.RA 10000 128) (Eh : Spec.RA 50000 256) (b : Fin 2048)
    (h0 : ∀ s : Fin 128, a0 (ix2 p s) = Spec.catRow ci Ec b s)
    (h1 : ∀ s : Fin 256, a1 (ix2 p s) + d1 (ix2 p s) = Spec.bagRow hb Eh tb b s)
    (h2 : ∀ s : Fin 256, a2 (ix2 p s) + d2 (ix2 p s) = Spec.bagRow hf Eh tf b s)
    (h3 : ∀ s : Fin 7, x5 (ix2 p s) = d (ix2 b s)) (j : Fin 768) :
    View.canon (Val := Elt Ideal)
        [(⟨rc647, k0_pay5 (F := Ideal)⟩ : View.Piece (Elt Ideal) S512x768 .bf16), ⟨rc640, k0_pay4 (F := Ideal) x5⟩,
          ⟨rc384, k0_pay3 (F := Ideal) a2 d2⟩, ⟨rc128, k0_pay2 (F := Ideal) a1 d1⟩, ⟨rc0, k0_pay1 (F := Ideal) a0⟩] (ix2 p j)
      = Spec.feat ci hb hf tb tf d Ec Eh b j := by
  have := j.isLt
  unfold Spec.feat
  by_cases c0 : j.val < 128
  · rw [dif_pos c0]
    exact col_skip (.inl (by omega)) (col_skip (.inl (by omega)) (col_skip (.inl (by omega)) (col_skip (.inl (by omega))
      (col_hit ⟨j.val, c0⟩ (Nat.zero_add _).symm (h0 _)))))
  rw [dif_neg c0]
  by_cases c1 : j.val < 384
  · rw [dif_pos c1]
    exact col_skip (.inl (by omega)) (col_skip (.inl (by omega)) (col_skip (.inl (by omega))
      (col_hit ⟨j.val - 128, by omega⟩ (by show j.val = 128 + (j.val - 128); omega) (h1 _))))
  rw [dif_neg c1]
  by_cases c2 : j.val < 640
  · rw [dif_pos c2]
    exact col_skip (.inl (by omega)) (col_skip (.inl (by omega))
      (col_hit ⟨j.val - 384, by omega⟩ (by show j.val = 384 + (j.val - 384); omega) (h2 _)))
  rw [dif_neg c2]
  by_cases c3 : j.val < 647
  · rw [dif_pos c3]
    exact col_skip (.inl (by omega)) (col_hit ⟨j.val - 640, by omega⟩ (by show j.val = 640 + (j.val - 640); omega) (h3 _))
  · rw [dif_neg c3]
    exact col_hit ⟨j.val - 647, by omega⟩ (by show j.val = 647 + (j.val - 647); omega) (pay5_apply _)

end Cert.KernelIdeal.Val0

end
-- ==== Proof.KI.R0Pieces.lean ====
import proofs.«408609_j52080773431571_2_alg».proof.Proof.KI.R0Frame
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := by funext a; fin_cases a <;> rfl

/-- Word column `k` of a block of eight word columns, as a one-column block. -/
abbrev wcol (x : Vec F S512x8 .i32) (k : ℕ) (h : ∀ a, (![0, k] : Fin 2 → Nat) a + S512x1.size a ≤ S512x8.size a) :
    Vec F S512x1 .i32 :=
  View.ld x (Rect.unit (s := S512x8) ![0, k] S512x1.size h)

/-- One tile's addend to the first bag's accumulator `a`, over the eight word columns of the block `x`. -/
abbrev upd1 (i : grid0.Coords) (x : Vec F S512x8 .i32) (x7 : Vec F S2000x256 .bf16) (a : Vec F S512x256 .f32) :
    Vec F S512x256 .f32 :=
  k0_pay12 (k0_pay9 i) (k0_pay11 i (wcol x 0 inb_S512x8_S512x1_0_0) (wcol x 1 inb_S512x8_S512x1_0_1) (wcol x 2 inb_S512x8_S512x1_0_2))
    (wcol x 3 inb_S512x8_S512x1_0_3) (wcol x 4 inb_S512x8_S512x1_0_4) (wcol x 5 inb_S512x8_S512x1_0_5)
    (wcol x 6 inb_S512x8_S512x1_0_6) (wcol x 7 inb_S512x8_S512x1_0_7) x7 a

/-- The same for the second bag. -/
abbrev upd2 (i : grid0.Coords) (x : Vec F S512x8 .i32) (x7 : Vec F S2000x256 .bf16) (a : Vec F S512x256 .f32) :
    Vec F S512x256 .f32 :=
  k0_pay14 (k0_pay9 i) (k0_pay13 (k0_pay9 i) (wcol x 0 inb_S512x8_S512x1_0_0) (wcol x 1 inb_S512x8_S512x1_0_1))
    (wcol x 2 inb_S512x8_S512x1_0_2) (wcol x 3 inb_S512x8_S512x1_0_3) (wcol x 4 inb_S512x8_S512x1_0_4)
    (wcol x 5 inb_S512x8_S512x1_0_5) (wcol x 6 inb_S512x8_S512x1_0_6) (wcol x 7 inb_S512x8_S512x1_0_7) x7 a

variable (V : (c : Dev nD) → (b : Ref sig .tc) → Buf (Elt F) ((c : Thread nD τ).loc b)) (c : Dev nD) (t : Fin cfg0.N)

section CaseA
variable (hc0 : cond0_0 (grid0.coords t)) (hc1 : ¬cond0_1 (grid0.coords t))

/-- At the first tile each accumulator holds its last store: the tile's addend to the zero block stored just before. -/
theorem sout0_A_0_eq : (ptA V c t hc0 hc1).2.1 = k0_pay10 (grid0.coords t) (iblk0 V c 0 t) (iblk0 V c 6 t) (k0_pay6 (F := F)) := by
  unfold ptA; dsimp only; unfold sout0_A_0
  rw [View.read_writes_eq_canon _ _ _ (fun y => scover0_A_0 (y := y) ..)]
  unfold kernelRun0_A; dsimp only; sl_unfold_words
  rw [View.canon_cons_unit_zero (S := S512x128) hz2]
  simp only [View.readCov_unit_zero (S := S512x128) _ hz2, View.readAt_eq_ld, (hs0_0 t).read_unread, (hs0_6 t).read_unread, (Memref.isWhole_whole cc0_scratch0).read_unread,
    View.ld_unit_zero (S := S512x1) hz2, View.ld_unit_zero (S := S400x128) hz2, View.ld_unit_zero (S := S512x128) hz2]

theorem sout0_A_1_eq : (ptA V c t hc0 hc1).2.2.1 = upd1 (grid0.coords t) (iblk0 V c 1 t) (iblk0 V c 7 t) (k0_pay7 (F := F)) := by
  unfold ptA; dsimp only; unfold sout0_A_1
  rw [View.read_writes_eq_canon _ _ _ (fun y => scover0_A_1 (y := y) ..)]
  unfold kernelRun0_A; dsimp only; sl_unfold_words
  rw [View.canon_cons_unit_zero (S := S512x256) hz2]
  simp only [View.readCov_unit_zero (S := S512x256) _ hz2, View.readAt_eq_ld, (hs0_1 t).read_unread, (hs0_7 t).read_unread, (Memref.isWhole_whole cc0_scratch1).read_unread,
    View.ld_unit_zero (S := S2000x256) hz2, View.ld_unit_zero (S := S512x256) hz2]

theorem sout0_A_2_eq : (ptA V c t hc0 hc1).2.2.2 = upd2 (grid0.coords t) (iblk0 V c 2 t) (iblk0 V c 7 t) (k0_pay8 (F := F)) := by
  unfold ptA; dsimp only; unfold sout0_A_2
  rw [View.read_writes_eq_canon _ _ _ (fun y => scover0_A_2 (y := y) ..)]
  unfold kernelRun0_A; dsimp only; sl_unfold_words
  rw [View.canon_cons_unit_zero (S := S512x256) hz2]
  simp only [View.readCov_unit_zero (S := S512x256) _ hz2, View.readAt_eq_ld, (hs0_2 t).read_unread, (hs0_7 t).read_unread, (Memref.isWhole_whole cc0_scratch2).read_unread,
    View.ld_unit_zero (S := S2000x256) hz2, View.ld_unit_zero (S := S512x256) hz2]

end CaseA

section CaseB
variable (hc0 : ¬cond0_0 (grid0.coords t)) (hc1 : ¬cond0_1 (grid0.coords t))
  (a0 : Vec F S512x128 .f32) (a1 a2 : Vec F S512x256 .f32)

/-- At a later tile each accumulator holds its one store: the tile's addend to what it held. -/
theorem sout0_B_0_eq : (ptB V c t hc0 hc1 a0 a1 a2).2.1 = k0_pay10 (grid0.coords t) (iblk0 V c 0 t) (iblk0 V c 6 t) a0 := by
  unfold ptB; dsimp only; unfold sout0_B_0
  rw [View.read_writes_eq_canon _ _ _ (fun y => scover0_B_0 (y := y) ..)]
  unfold kernelRun0_B; dsimp only; sl_unfold_words
  rw [View.canon_unit_zero hz2]
  simp only [View.readAt_eq_ld, (hs0_0 t).read_unread, (hs0_6 t).read_unread, (Memref.isWhole_whole cc0_scratch0).read_unread,
    View.ld_unit_zero (S := S512x1) hz2, View.ld_unit_zero (S := S400x128) hz2, View.ld_unit_zero (S := S512x128) hz2]

theorem sout0_B_1_eq : (ptB V c t hc0 hc1 a0 a1 a2).2.2.1 = upd1 (grid0.coords t) (iblk0 V c 1 t) (iblk0 V c 7 t) a1 := by
  unfold ptB; dsimp only; unfold sout0_B_1
  rw [View.read_writes_eq_canon _ _ _ (fun y => scover0_B_1 (y := y) ..)]
  unfold kernelRun0_B; dsimp only; sl_unfold_words
  rw [View.canon_unit_zero hz2]
  simp only [View.readAt_eq_ld, (hs0_1 t).read_unread, (hs0_7 t).read_unread, (Memref.isWhole_whole cc0_scratch1).read_unread,
    View.ld_unit_zero (S := S2000x256) hz2, View.ld_unit_zero (S := S512x256) hz2]

theorem sout0_B_2_eq : (ptB V c t hc0 hc1 a0 a1 a2).2.2.2 = upd2 (grid0.coords t) (iblk0 V c 2 t) (iblk0 V c 7 t) a2 := by
  unfold ptB; dsimp only; unfold sout0_B_2
  rw [View.read_writes_eq_canon _ _ _ (fun y => scover0_B_2 (y := y) ..)]
  unfold kernelRun0_B; dsimp only; sl_unfold_words
  rw [View.canon_unit_zero hz2]
  simp only [View.readAt_eq_ld, (hs0_2 t).read_unread, (hs0_7 t).read_unread, (Memref.isWhole_whole cc0_scratch2).read_unread,
    View.ld_unit_zero (S := S2000x256) hz2, View.ld_unit_zero (S := S512x256) hz2]

end CaseB

section CaseC
variable (hc0 : ¬cond0_0 (grid0.coords t)) (hc1 : cond0_1 (grid0.coords t))
  (a0 : Vec F S512x128 .f32) (a1 a2 : Vec F S512x256 .f32)

theorem sout0_C_0_eq : (ptC V c t hc0 hc1 a0 a1 a2).2.1 = k0_pay10 (grid0.coords t) (iblk0 V c 0 t) (iblk0 V c 6 t) a0 := by
  unfold ptC; dsimp only; unfold sout0_C_0
  rw [View.read_writes_eq_canon _ _ _ (fun y => scover0_C_0 (y := y) ..)]
  unfold kernelRun0_C; dsimp only; sl_unfold_words
  rw [View.canon_unit_zero hz2]
  simp only [View.readAt_eq_ld, (hs0_0 t).read_unread, (hs0_6 t).read_unread, (Memref.isWhole_whole cc0_scratch0).read_unread,
    View.ld_unit_zero (S := S512x1) hz2, View.ld_unit_zero (S := S400x128) hz2, View.ld_unit_zero (S := S512x128) hz2]

theorem sout0_C_1_eq : (ptC V c t hc0 hc1 a0 a1 a2).2.2.1 = upd1 (grid0.coords t) (iblk0 V c 1 t) (iblk0 V c 7 t) a1 := by
  unfold ptC; dsimp only; unfold sout0_C_1
  rw [View.read_writes_eq_canon _ _ _ (fun y => scover0_C_1 (y := y) ..)]
  unfold kernelRun0_C; dsimp only; sl_unfold_words
  rw [View.canon_unit_zero hz2]
  simp only [View.readAt_eq_ld, (hs0_1 t).read_unread, (hs0_7 t).read_unread, (Memref.isWhole_whole cc0_scratch1).read_unread,
    View.ld_unit_zero (S := S2000x256) hz2, View.ld_unit_zero (S := S512x256) hz2]

theorem sout0_C_2_eq : (ptC V c t hc0 hc1 a0 a1 a2).2.2.2 = upd2 (grid0.coords t) (iblk0 V c 2 t) (iblk0 V c 7 t) a2 := by
  unfold ptC; dsimp only; unfold sout0_C_2
  rw [View.read_writes_eq_canon _ _ _ (fun y => scover0_C_2 (y := y) ..)]
  unfold kernelRun0_C; dsimp only; sl_unfold_words
  rw [View.canon_unit_zero hz2]
  simp only [View.readAt_eq_ld, (hs0_2 t).read_unread, (hs0_7 t).read_unread, (Memref.isWhole_whole cc0_scratch2).read_unread,
    View.ld_unit_zero (S := S2000x256) hz2, View.ld_unit_zero (S := S512x256) hz2]

/-- The output block's five column stores, newest first; the first three read the accumulators as this point leaves them. -/
theorem out0_C_8_eq : (ptC V c t hc0 hc1 a0 a1 a2).1 =
    View.canon
      [⟨Rect.unit (s := S512x768) ![0, 647] S512x121.size inb_S512x768_S512x121_0_647, k0_pay5 (F := F)⟩,
       ⟨Rect.unit (s := S512x768) ![0, 640] S512x7.size inb_S512x768_S512x7_0_640, k0_pay4 (iblk0 V c 5 t)⟩,
       ⟨Rect.unit (s := S512x768) ![0, 384] S512x256.size inb_S512x768_S512x256_0_384, k0_pay3 (upd2 (grid0.coords t) (iblk0 V c 2 t) (iblk0 V c 7 t) a2) (iblk0 V c 4 t)⟩,
       ⟨Rect.unit (s := S512x768) ![0, 128] S512x256.size inb_S512x768_S512x256_0_128, k0_pay2 (upd1 (grid0.coords t) (iblk0 V c 1 t) (iblk0 V c 7 t) a1) (iblk0 V c 3 t)⟩,
       ⟨Rect.unit (s := S512x768) ![0, 0] S512x128.size inb_S512x768_S512x128_0_0, k0_pay1 (k0_pay10 (grid0.coords t) (iblk0 V c 0 t) (iblk0 V c 6 t) a0)⟩] := by
  unfold ptC; dsimp only; unfold out0_C_8
  rw [View.read_writes_eq_canon _ _ _ (fun y => cover0_C_8 (y := y) ..)]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
    (Memref.isWhole_whole cc0_scratch0).read_unread, (Memref.isWhole_whole cc0_scratch1).read_unread, (Memref.isWhole_whole cc0_scratch2).read_unread,
    View.readCov_unit_zero (S := S512x128) _ hz2, View.readCov_unit_zero (S := S512x256) _ hz2,
    View.ld_unit_zero (S := S512x1) hz2, View.ld_unit_zero (S := S512x7) hz2, View.ld_unit_zero (S := S400x128) hz2, View.ld_unit_zero (S := S2000x256) hz2, View.ld_unit_zero (S := S512x128) hz2, View.ld_unit_zero (S := S512x256) hz2]
  try rfl

end CaseC

end Cert.KernelIdeal.Fr

end
-- ==== Proof.KI.R0Value.lean ====
import proofs.«408609_j52080773431571_2_alg».proof.Proof.KI.R0Frame
import proofs.«408609_j52080773431571_2_alg».proof.Proof.KI.R0Tiles
import proofs.«408609_j52080773431571_2_alg».proof.Proof.KI.R0Cover
import proofs.«408609_j52080773431571_2_alg».proof.Proof.KI.R0Blocks
import proofs.«408609_j52080773431571_2_alg».proof.Proof.KI.R0Out
import proofs.«408609_j52080773431571_2_alg».proof.Proof.KI.R0Pieces

noncomputable section

namespace Cert.KernelIdeal.Val0

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev aCi (c : Dev nD) : Spec.WA 2048 1 := V c main_v0
abbrev aHb (c : Dev nD) : Spec.WA 2048 8 := V c main_arg2
abbrev aHf (c : Dev nD) : Spec.WA 2048 8 := V c main_arg3
abbrev aTb (c : Dev nD) : Spec.RA 2048 256 := V c main_arg4
abbrev aTf (c : Dev nD) : Spec.RA 2048 256 := V c main_arg5
abbrev aD (c : Dev nD) : Spec.RA 2048 7 := V c main_arg0
abbrev aEc (c : Dev nD) : Spec.RA 10000 128 := V c main_v1
abbrev aEh (c : Dev nD) : Spec.RA 50000 256 := V c main_v2

abbrev xb0 (c : Dev nD) (t : Fin cfg0.N) : Vec Ideal S512x1 .i32 := iblk0 V c 0 t
abbrev xb1 (c : Dev nD) (t : Fin cfg0.N) : Vec Ideal S512x8 .i32 := iblk0 V c 1 t
abbrev xb2 (c : Dev nD) (t : Fin cfg0.N) : Vec Ideal S512x8 .i32 := iblk0 V c 2 t
abbrev xb3 (c : Dev nD) (t : Fin cfg0.N) : Vec Ideal S512x256 .f32 := iblk0 V c 3 t
abbrev xb4 (c : Dev nD) (t : Fin cfg0.N) : Vec Ideal S512x256 .f32 := iblk0 V c 4 t
abbrev xb5 (c : Dev nD) (t : Fin cfg0.N) : Vec Ideal S512x7 .f32 := iblk0 V c 5 t
abbrev xb6 (c : Dev nD) (t : Fin cfg0.N) : Vec Ideal S400x128 .bf16 := iblk0 V c 6 t
abbrev xb7 (c : Dev nD) (t : Fin cfg0.N) : Vec Ideal S2000x256 .bf16 := iblk0 V c 7 t

abbrev acc0 (c : Dev nD) (n : ℕ) (hn : n < cfg0.N) : Vec Ideal S512x128 .f32 := (outsAt0 V c n hn).2.1
abbrev acc1 (c : Dev nD) (n : ℕ) (hn : n < cfg0.N) : Vec Ideal S512x256 .f32 := (outsAt0 V c n hn).2.2.1
abbrev acc2 (c : Dev nD) (n : ℕ) (hn : n < cfg0.N) : Vec Ideal S512x256 .f32 := (outsAt0 V c n hn).2.2.2
abbrev oblk (c : Dev nD) (n : ℕ) (hn : n < cfg0.N) : Vec Ideal S512x768 .bf16 := (outsAt0 V c n hn).1

/-- Row `p` of the chunk of position `n`, as a row of the arrays. -/
abbrev rowAt (n : ℕ) (hn : n < cfg0.N) (p : Fin 512) : Fin 2048 :=
  ⟨512 * (n / 25) + p.val, by have h : n < 100 := lt_of_lt_of_eq hn (show cfg0.N = 100 from N_0); have := p.isLt; omega⟩

theorem acc_first (c : Dev nD) (t : Fin cfg0.N) (h0 : t.val % 25 = 0) :
    acc0 V c t.val t.isLt = k0_pay10 (grid0.coords t) (xb0 V c t) (xb6 V c t) (k0_pay6 (F := Ideal))
    ∧ acc1 V c t.val t.isLt = upd1 (grid0.coords t) (xb1 V c t) (xb7 V c t) (k0_pay7 (F := Ideal))
    ∧ acc2 V c t.val t.isLt = upd2 (grid0.coords t) (xb2 V c t) (xb7 V c t) (k0_pay8 (F := Ideal)) := by
  have h1 : ¬t.val % 25 = 24 := by omega
  show (outsAt0 V c t.val t.isLt).2.1 = _ ∧ (outsAt0 V c t.val t.isLt).2.2.1 = _ ∧ (outsAt0 V c t.val t.isLt).2.2.2 = _
  rw [outsAt0_A V c t h0 h1]
  exact ⟨sout0_A_0_eq .., sout0_A_1_eq .., sout0_A_2_eq ..⟩

theorem acc_next (c : Dev nD) (t : Fin cfg0.N) (h0 : ¬t.val % 25 = 0) :
    acc0 V c t.val t.isLt = k0_pay10 (grid0.coords t) (xb0 V c t) (xb6 V c t) (acc0 V c (t.val - 1) (Nat.lt_of_le_of_lt (Nat.sub_le _ _) t.isLt))
    ∧ acc1 V c t.val t.isLt = upd1 (grid0.coords t) (xb1 V c t) (xb7 V c t) (acc1 V c (t.val - 1) (Nat.lt_of_le_of_lt (Nat.sub_le _ _) t.isLt))
    ∧ acc2 V c t.val t.isLt = upd2 (grid0.coords t) (xb2 V c t) (xb7 V c t) (acc2 V c (t.val - 1) (Nat.lt_of_le_of_lt (Nat.sub_le _ _) t.isLt)) := by
  show (outsAt0 V c t.val t.isLt).2.1 = _ ∧ (outsAt0 V c t.val t.isLt).2.2.1 = _ ∧ (outsAt0 V c t.val t.isLt).2.2.2 = _
  by_cases h1 : t.val % 25 = 24
  · rw [outsAt0_C V c t h0 h1]
    exact ⟨sout0_C_0_eq .., sout0_C_1_eq .., sout0_C_2_eq ..⟩
  · rw [outsAt0_B V c t h0 h1]
    exact ⟨sout0_B_0_eq .., sout0_B_1_eq .., sout0_B_2_eq ..⟩

/-- The recurrence along a chunk, solved once for the three accumulators: restart at the first tile, add a tile's terms at each point. -/
theorem chunk_sum (T : ℕ) (p : Fin 512) (A : (n : ℕ) → n < cfg0.N → EReal) (term : Fin 2048 → ℕ → EReal)
    (hA : ∀ (n : ℕ) (hn : n < cfg0.N), n % 25 = 0 → A n hn = 0 + ∑ j : Fin T, term (rowAt n hn p) (T * (n % 25) + j.val))
    (hB : ∀ (n : ℕ) (hn : n + 1 < cfg0.N), ¬(n + 1) % 25 = 0 →
      A (n + 1) hn = A n (Nat.lt_of_succ_lt hn) + ∑ j : Fin T, term (rowAt (n + 1) hn p) (T * ((n + 1) % 25) + j.val)) :
    ∀ (n : ℕ) (hn : n < cfg0.N), A n hn = ∑ s ∈ Finset.range (n % 25 + 1), ∑ j : Fin T, term (rowAt n hn p) (T * s + j.val)
  | 0, hn => by
    rw [hA 0 hn rfl, zero_add, Nat.zero_mod]
    exact (Finset.sum_range_one (fun s => ∑ j : Fin T, term (rowAt 0 hn p) (T * s + j.val))).symm
  | n + 1, hn => by
    by_cases h : (n + 1) % 25 = 0
    · rw [hA (n + 1) hn h, zero_add, h]
      exact (Finset.sum_range_one (fun s => ∑ j : Fin T, term (rowAt (n + 1) hn p) (T * s + j.val))).symm
    · have hm : (n + 1) % 25 = n % 25 + 1 := by omega
      have hr : rowAt (n + 1) hn p = rowAt n (Nat.lt_of_succ_lt hn) p :=
        Fin.ext (by show 512 * ((n + 1) / 25) + p.val = 512 * (n / 25) + p.val; omega)
      rw [hB n hn h, chunk_sum T p A term hA hB n (Nat.lt_of_succ_lt hn), hr, hm, Finset.sum_range_succ _ (n % 25 + 1)]

theorem cat_at (c : Dev nD) (t : Fin cfg0.N) (p : Fin 512) (q : Fin 128) (a : Vec Ideal S512x128 .f32) :
    k0_pay10 (grid0.coords t) (xb0 V c t) (xb6 V c t) a (ix2 p q)
      = a (ix2 p q) + ∑ j : Fin 400, catTerm (aCi V c) (aEc V c) (rowAt t.val t.isLt p) q (400 * (t.val % 25) + j.val) := by
  rw [pay10_apply, coord1]
  exact congrArg (a (ix2 p q) + ·) (cat_tile (aCi V c) (aEc V c) (rowAt t.val t.isLt p) q (t.val % 25) (Nat.mod_lt _ (by norm_num)) _
    (blk0 V c t p) (fun j => xb6 V c t (ix2 j q)) (fun j => blk6 V c t j q))

theorem word1 (c : Dev nD) (t : Fin cfg0.N) (p : Fin 512) (k : ℕ) (hk : k < 8) (h) :
    wcol (xb1 V c t) k h (ix2 p (0 : Fin 1)) = aHb V c (ix2 (rowAt t.val t.isLt p) (⟨k, hk⟩ : Fin 8)) :=
  (col _ p k hk h).trans (blk1 V c t p ⟨k, hk⟩)
theorem word2 (c : Dev nD) (t : Fin cfg0.N) (p : Fin 512) (k : ℕ) (hk : k < 8) (h) :
    wcol (xb2 V c t) k h (ix2 p (0 : Fin 1)) = aHf V c (ix2 (rowAt t.val t.isLt p) (⟨k, hk⟩ : Fin 8)) :=
  (col _ p k hk h).trans (blk2 V c t p ⟨k, hk⟩)

theorem upd1_at (c : Dev nD) (t : Fin cfg0.N) (p : Fin 512) (q : Fin 256) (a : Vec Ideal S512x256 .f32) :
    upd1 (grid0.coords t) (xb1 V c t) (xb7 V c t) a (ix2 p q)
      = a (ix2 p q) + ∑ j : Fin 2000, bagTerm (aHb V c) (aEh V c) (rowAt t.val t.isLt p) q (2000 * (t.val % 25) + j.val) := by
  unfold upd1
  rw [bag1_apply, coord1]
  exact congrArg (a (ix2 p q) + ·) (bag_tile (aHb V c) (aEh V c) (rowAt t.val t.isLt p) q (t.val % 25) (Nat.mod_lt _ (by norm_num)) _ _ _ _ _ _ _ _
    (word1 V c t p 0 (by omega) _) (word1 V c t p 1 (by omega) _) (word1 V c t p 2 (by omega) _) (word1 V c t p 3 (by omega) _) (word1 V c t p 4 (by omega) _) (word1 V c t p 5 (by omega) _) (word1 V c t p 6 (by omega) _) (word1 V c t p 7 (by omega) _)
    (fun j => xb7 V c t (ix2 j q)) (fun j => blk7 V c t j q))
theorem upd2_at (c : Dev nD) (t : Fin cfg0.N) (p : Fin 512) (q : Fin 256) (a : Vec Ideal S512x256 .f32) :
    upd2 (grid0.coords t) (xb2 V c t) (xb7 V c t) a (ix2 p q)
      = a (ix2 p q) + ∑ j : Fin 2000, bagTerm (aHf V c) (aEh V c) (rowAt t.val t.isLt p) q (2000 * (t.val % 25) + j.val) := by
  unfold upd2
  rw [bag2_apply, coord1]
  exact congrArg (a (ix2 p q) + ·) (bag_tile (aHf V c) (aEh V c) (rowAt t.val t.isLt p) q (t.val % 25) (Nat.mod_lt _ (by norm_num)) _ _ _ _ _ _ _ _
    (word2 V c t p 0 (by omega) _) (word2 V c t p 1 (by omega) _) (word2 V c t p 2 (by omega) _) (word2 V c t p 3 (by omega) _) (word2 V c t p 4 (by omega) _) (word2 V c t p 5 (by omega) _) (word2 V c t p 6 (by omega) _) (word2 V c t p 7 (by omega) _)
    (fun j => xb7 V c t (ix2 j q)) (fun j => blk7 V c t j q))

theorem acc0_sum (c : Dev nD) (p : Fin 512) (q : Fin 128) : ∀ (n : ℕ) (hn : n < cfg0.N),
    acc0 V c n hn (ix2 p q)
      = ∑ s ∈ Finset.range (n % 25 + 1), ∑ j : Fin 400, catTerm (aCi V c) (aEc V c) (rowAt n hn p) q (400 * s + j.val) := by
  refine chunk_sum 400 p (fun n hn => acc0 V c n hn (ix2 p q)) (fun b => catTerm (aCi V c) (aEc V c) b q) ?_ ?_
  · intro n hn h0
    exact (congrFun (acc_first V c ⟨n, hn⟩ h0).1 (ix2 p q)).trans
      ((cat_at V c ⟨n, hn⟩ p q _).trans (by rw [pay6_apply]))
  · intro n hn h
    exact (congrFun (acc_next V c ⟨n + 1, hn⟩ h).1 (ix2 p q)).trans (cat_at V c ⟨n + 1, hn⟩ p q _)
theorem acc1_sum (c : Dev nD) (p : Fin 512) (q : Fin 256) : ∀ (n : ℕ) (hn : n < cfg0.N),
    acc1 V c n hn (ix2 p q)
      = ∑ s ∈ Finset.range (n % 25 + 1), ∑ j : Fin 2000, bagTerm (aHb V c) (aEh V c) (rowAt n hn p) q (2000 * s + j.val) := by
  refine chunk_sum 2000 p (fun n hn => acc1 V c n hn (ix2 p q)) (fun b => bagTerm (aHb V c) (aEh V c) b q) ?_ ?_
  · intro n hn h0
    exact (congrFun (acc_first V c ⟨n, hn⟩ h0).2.1 (ix2 p q)).trans
      ((upd1_at V c ⟨n, hn⟩ p q _).trans (by rw [pay7_apply]))
  · intro n hn h
    exact (congrFun (acc_next V c ⟨n + 1, hn⟩ h).2.1 (ix2 p q)).trans (upd1_at V c ⟨n + 1, hn⟩ p q _)
theorem acc2_sum (c : Dev nD) (p : Fin 512) (q : Fin 256) : ∀ (n : ℕ) (hn : n < cfg0.N),
    acc2 V c n hn (ix2 p q)
      = ∑ s ∈ Finset.range (n % 25 + 1), ∑ j : Fin 2000, bagTerm (aHf V c) (aEh V c) (rowAt n hn p) q (2000 * s + j.val) := by
  refine chunk_sum 2000 p (fun n hn => acc2 V c n hn (ix2 p q)) (fun b => bagTerm (aHf V c) (aEh V c) b q) ?_ ?_
  · intro n hn h0
    exact (congrFun (acc_first V c ⟨n, hn⟩ h0).2.2 (ix2 p q)).trans
      ((upd2_at V c ⟨n, hn⟩ p q _).trans (by rw [pay8_apply]))
  · intro n hn h
    exact (congrFun (acc_next V c ⟨n + 1, hn⟩ h).2.2 (ix2 p q)).trans (upd2_at V c ⟨n + 1, hn⟩ p q _)

theorem acc0_last (c : Dev nD) (t : Fin cfg0.N) (h1 : t.val % 25 = 24) (p : Fin 512) (q : Fin 128) :
    acc0 V c t.val t.isLt (ix2 p q) = Spec.catRow (aCi V c) (aEc V c) (rowAt t.val t.isLt p) q := by
  rw [acc0_sum V c p q t.val t.isLt, h1, catRow_eq_range]
  exact sum_tiles 400 (catTerm (aCi V c) (aEc V c) (rowAt t.val t.isLt p) q) 25
theorem acc1_last (c : Dev nD) (t : Fin cfg0.N) (h1 : t.val % 25 = 24) (p : Fin 512) (q : Fin 256) :
    acc1 V c t.val t.isLt (ix2 p q) + aTb V c (ix2 (rowAt t.val t.isLt p) q) = Spec.bagRow (aHb V c) (aEh V c) (aTb V c) (rowAt t.val t.isLt p) q := by
  rw [acc1_sum V c p q t.val t.isLt, h1, bagRow_eq_range]
  exact congrArg (· + aTb V c (ix2 (rowAt t.val t.isLt p) q)) (sum_tiles 2000 (bagTerm (aHb V c) (aEh V c) (rowAt t.val t.isLt p) q) 25)
theorem acc2_last (c : Dev nD) (t : Fin cfg0.N) (h1 : t.val % 25 = 24) (p : Fin 512) (q : Fin 256) :
    acc2 V c t.val t.isLt (ix2 p q) + aTf V c (ix2 (rowAt t.val t.isLt p) q) = Spec.bagRow (aHf V c) (aEh V c) (aTf V c) (rowAt t.val t.isLt p) q := by
  rw [acc2_sum V c p q t.val t.isLt, h1, bagRow_eq_range]
  exact congrArg (· + aTf V c (ix2 (rowAt t.val t.isLt p) q)) (sum_tiles 2000 (bagTerm (aHf V c) (aEh V c) (rowAt t.val t.isLt p) q) 25)

theorem oblk_last (c : Dev nD) (t : Fin cfg0.N) (h1 : t.val % 25 = 24) :
    oblk V c t.val t.isLt = View.canon (Val := Elt Ideal) [(⟨rc647, k0_pay5 (F := Ideal)⟩ : View.Piece (Elt Ideal) S512x768 .bf16),
      ⟨rc640, k0_pay4 (F := Ideal) (xb5 V c t)⟩, ⟨rc384, k0_pay3 (F := Ideal) (acc2 V c t.val t.isLt) (xb4 V c t)⟩,
      ⟨rc128, k0_pay2 (F := Ideal) (acc1 V c t.val t.isLt) (xb3 V c t)⟩, ⟨rc0, k0_pay1 (F := Ideal) (acc0 V c t.val t.isLt)⟩] := by
  have h0 : ¬t.val % 25 = 0 := by omega
  obtain ⟨e0, e1, e2⟩ := acc_next V c t h0
  rw [e0, e1, e2]
  show (outsAt0 V c t.val t.isLt).1 = _
  rw [outsAt0_C V c t h0 h1]
  exact out0_C_8_eq ..

theorem flushed_last (c : Dev nD) (t : Fin cfg0.N) (h1 : t.val % 25 = 24) :
    (dat0 V c).flushed 8 t = ((cfg0.win 8).blk t).view.read (Elt Ideal)
      (Spec.emb (aCi V c) (aHb V c) (aHf V c) (aTb V c) (aTf V c) (aD V c) (aEc V c) (aEh V c)) := by
  refine funext fun (y : S512x768.Idx) => ?_
  rw [View.read_apply, emb8 t y]
  obtain ⟨p, j, rfl⟩ : ∃ (p : Fin 512) (j : Fin 768), y = ix2 p j := ⟨y 0, y 1, eq_ix2 y⟩
  show (dat0 V c).after 8 t (ix2 p j) = Spec.feat (aCi V c) (aHb V c) (aHf V c) (aTb V c) (aTf V c) (aD V c) (aEc V c) (aEh V c) (rowAt t.val t.isLt p) j
  rw [after0_8]
  refine (congrFun (oblk_last V c t h1) (ix2 p j)).trans ?_
  exact out_pieces_feat (acc0 V c t.val t.isLt) (acc1 V c t.val t.isLt) (acc2 V c t.val t.isLt) (xb3 V c t) (xb4 V c t) (xb5 V c t) p
    (aCi V c) (aHb V c) (aHf V c) (aTb V c) (aTf V c) (aD V c) (aEc V c) (aEh V c) (rowAt t.val t.isLt p)
    (fun s => acc0_last V c t h1 p s)
    (fun s => (congrArg (acc1 V c t.val t.isLt (ix2 p s) + ·) (blk3 V c t p s)).trans (acc1_last V c t h1 p s))
    (fun s => (congrArg (acc2 V c t.val t.isLt (ix2 p s) + ·) (blk4 V c t p s)).trans (acc2_last V c t h1 p s))
    (fun s => blk5 V c t p s) j

theorem arrAt0_out (c : Dev nD) :
    ((dat0 (F := Ideal) V c).arrAt 8 cfg0.N : S2048x768.Idx → EReal)
      = Cert.Spec.emb (V c main_v0) (V c main_arg2) (V c main_arg3) (V c main_arg4) (V c main_arg5) (V c main_arg0)
          (V c main_v1) (V c main_v2) :=
  arrAt0_of_flushed c (dat0 V c) _ (fun t ht => flushed_last V c t ht)

end Cert.KernelIdeal.Val0

end
-- ==== Proof.KI.R1Value.lean ====
import proofs.«408609_j52080773431571_2_alg».proof.Proof.KI.R1Frame
import proofs.«408609_j52080773431571_2_alg».proof.Proof.Spec
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Fr Idealize.ShloMosaic Idealize.ShloMosaic.TcCoe Idealize.SL.Sem Idealize.ShloMosaic.ValueIdx
open Idealize.ShloMosaic.Pipeline (Dat)

/-- A broadcast reads 0 on the operand's unit axis and the result's coordinate on the other. -/
theorem spreadCol {α : Type} (w : S128x1.Idx → α) (h : S128x1.Broadcasts S128x10000) (p : Fin 128) (q : Fin 10000) :
    broadcastTo S128x10000 w h (ix2 p q) = w (ix2 p (0 : Fin 1)) :=
  broadcastTo_apply w h (ix2 p q) (ix2 p (0 : Fin 1)) (fun a => match a with
    | ⟨0, _⟩ => by show p.val = if (128 : Nat) = 1 then 0 else p.val; rw [if_neg (by decide)]
    | ⟨1, _⟩ => by show 0 = if (1 : Nat) = 1 then 0 else q.val; rw [if_pos rfl])

/-- Both indices have row-major position `p`. -/
theorem asCol {α : Type} (v : S128.Idx → α) (h : S128.ShapeCasts S128x1) (p : Fin 128) :
    shapeCast S128x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The contraction index of a rows-by-columns product is its one coordinate, so the product into zero is the sum over it. -/
theorem mm_apply {M K N : Nat} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (q : Fin N) :
    matmul d none l r (constant ⟨2, ![M, N]⟩ .f32 0x00000000#32) (ix2 p q) = ∑ k : Fin K, l (ix2 p k) * r (ix2 k q) := by
  subst hd
  show FloatOps.matmul (DotDims.plain M K N) none l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (fun a b => l a * r b) (funext fun a => Fin.ext (match a with | ⟨0, _⟩ => rfl | ⟨1, _⟩ => hk))
    (funext fun a => Fin.ext (match a with | ⟨0, _⟩ => hk | ⟨1, _⟩ => rfl))

theorem putBack (h : S128x10000.Reduces [1] S128) (p : Fin 128) (k : Fin (S128x10000.size 1)) :
    h.lift (ix1 p) k = ix2 p (⟨k.val, k.isLt⟩ : Fin 10000) := by
  funext c; apply Fin.ext
  fin_cases c <;> rfl

theorem negInf : Ideal.ofBits .f32 0xFF800000#32 = (⊥ : EReal) := by simp [Ideal.ofBits, Ideal.ieee]

section
variable (x0 : FVec Ideal S128x768 .bf16) (x1 : FVec Ideal S768x1024 .bf16) (x2 : FVec Ideal S1x1024 .f32)
  (x3 : FVec Ideal S1024x10000 .bf16) (x4 : FVec Ideal S1x10000 .f32) (L : FVec Ideal S128x10000 .f32) (p : Fin 128)

def hiddenVec : FVec Ideal S128x1024 .bf16 :=
  truncf .bf16 (maximumf (addf (matmul dot_S128x768_S768x1024_S128x1024_1_0_0_1_n_n none (shapeCast S128x768 x0 shapeCasts_S128x768_S128x768) (shapeCast S768x1024 x1 shapeCasts_S768x1024_S768x1024) (constant S128x1024 .f32 0x00000000#32))
      (broadcastTo S128x1024 (shapeCast S1x1024 x2 shapeCasts_S1x1024_S1x1024) broadcasts_S1x1024_S128x1024))
    (broadcast S128x1024 (Scalar.ofBits .f32 0x00000000#32))) bitsLt_bf16_f32

def logitsVec : FVec Ideal S128x10000 .f32 :=
  addf (matmul dot_S128x1024_S1024x10000_S128x10000_1_0_0_1_n_n none (hiddenVec x0 x1 x2) (shapeCast S1024x10000 x3 shapeCasts_S1024x10000_S1024x10000) (constant S128x10000 .f32 0x00000000#32))
    (broadcastTo S128x10000 (shapeCast S1x10000 x4 shapeCasts_S1x10000_S1x10000) broadcasts_S1x10000_S128x10000)

/-- The log-softmax's first subtraction: every row less its maximum. -/
def centred : FVec Ideal S128x10000 .f32 :=
  subf L (broadcastTo S128x10000 (shapeCast S128x1 (maximumf (broadcast S128 (Scalar.ofBits .f32 0xFF800000#32))
    (multiReduction .maximumf [1] S128 L 0xFF800000#32 reduces_S128x10000_S128 (.inl rfl) rfl)) shapeCasts_S128_S128x1) broadcasts_S128x1_S128x10000)

/-- Its second: less the logarithm of the row's sum of exponentials. -/
def tailVec : FVec Ideal S128x10000 .f32 :=
  subf (centred L) (broadcastTo S128x10000 (log (shapeCast S128x1 (multiReduction .add [1] S128 (exp (centred L)) 0x00000000#32 reduces_S128x10000_S128 (.inl rfl) rfl) shapeCasts_S128_S128x1)) broadcasts_S128x1_S128x10000)

theorem centred_apply (o : Fin 10000) :
    centred L (ix2 p o) = Cert.Spec.shifted (fun o' => L (ix2 p o')) o := by
  unfold centred
  rw [subf_apply, spreadCol, asCol, maximumf_apply, broadcast_apply]
  exact congrArg (fun z : EReal => L (ix2 p o) - z) (congrArg₂ (max : EReal → EReal → EReal) negInf
    ((Ideal.multiReduction_maximumf_single L _ reduces_S128x10000_S128 (.inl rfl) rfl (ix1 p)).trans
      (congrArg₂ (fun (b : EReal) (f : Fin 10000 → EReal) => (Finset.univ : Finset (Fin 10000)).fold max b f) negInf
        (funext fun k => congrArg L (putBack reduces_S128x10000_S128 p k)))))

theorem tailVec_apply (q : Fin 10000) :
    tailVec L (ix2 p q) = Cert.Spec.logSoftmaxRow (fun o => L (ix2 p o)) q := by
  unfold tailVec
  rw [subf_apply, spreadCol]
  show centred L (ix2 p q) - Ideal.log (shapeCast S128x1 (multiReduction .add [1] S128 (exp (centred L)) 0x00000000#32 reduces_S128x10000_S128 (.inl rfl) rfl) shapeCasts_S128_S128x1 (ix2 p (0 : Fin 1))) = _
  rw [asCol, centred_apply]
  unfold Cert.Spec.logSoftmaxRow
  refine congrArg (fun z => Cert.Spec.shifted (fun o => L (ix2 p o)) q - Ideal.log z)
    ((Ideal.multiReduction_add_single (exp (centred L)) _ reduces_S128x10000_S128 (.inl rfl) rfl (ix1 p)).trans
      (Finset.sum_congr rfl fun k _ => ?_))
  show Ideal.exp (centred L (reduces_S128x10000_S128.lift (ix1 p) k)) = _
  rw [putBack, centred_apply]
  rfl

theorem hiddenVec_apply (h : Fin 1024) :
    hiddenVec x0 x1 x2 (ix2 p h) = max ((∑ j : Fin 768, x0 (ix2 p j) * x1 (ix2 j h)) + x2 (ix2 (0 : Fin 1) h)) 0 := by
  unfold hiddenVec
  rw [shapeCast_self, shapeCast_self, shapeCast_self, truncf_apply, maximumf_apply, addf_apply, broadcast_apply, mm_apply dot_S128x768_S768x1024_S128x1024_1_0_0_1_n_n rfl, broadcastTo_1b_ab_apply]
  exact congrArg (max _) Ideal.ofBits_zero_f32

theorem logitsVec_apply (o : Fin 10000) :
    logitsVec x0 x1 x2 x3 x4 (ix2 p o) = (∑ h : Fin 1024, hiddenVec x0 x1 x2 (ix2 p h) * x3 (ix2 h o)) + x4 (ix2 (0 : Fin 1) o) := by
  unfold logitsVec
  rw [shapeCast_self, shapeCast_self, addf_apply, mm_apply dot_S128x1024_S1024x10000_S128x10000_1_0_0_1_n_n rfl, broadcastTo_1b_ab_apply]

end

theorem hz : (![0, 0] : Fin 2 → Nat) = fun _ => 0 := funext fun a => by fin_cases a <;> rfl

theorem idx1 : ∀ t : Fin cfg1.N, (win1_0.index t (0 : Fin 2) = t.val ∧ win1_0.index t (1 : Fin 2) = 0
    ∧ win1_5.index t (0 : Fin 2) = t.val ∧ win1_5.index t (1 : Fin 2) = 0)
    ∧ (∀ a : Fin 2, win1_1.index t a = 0) ∧ (∀ a : Fin 2, win1_2.index t a = 0) ∧ (∀ a : Fin 2, win1_3.index t a = 0) ∧ ∀ a : Fin 2, win1_4.index t a = 0 :=
  (by decide +kernel : ∀ t : Fin grid1.N, _)

variable (V : (c : Dev nD) → (b : Ref sig .tc) → Buf (Elt Ideal) ((c : Thread nD τ).loc b)) (c : Dev nD) (t : Fin cfg1.N)

theorem blk0 (p : Fin 128)
    (hb : t.val * 128 + p.val < 2048) (j : Fin 768) :
    (iblk1 V c 0 t : S128x768.Idx → EReal) (ix2 p j) = (V c main_v3 : S2048x768.Idx → EReal) (ix2 (⟨t.val * 128 + p.val, hb⟩ : Fin 2048) j) :=
  congrArg (V c main_v3 : S2048x768.Idx → EReal) (Shape.idx_ext₂ ((win1_0.rect_emb_val t (ix2 p j) (0 : Fin 2)).trans (congrArg (· * 128 + p.val) (idx1 t).1.1))
    (win1_0.rect_emb_val_of_index_zero t (1 : Fin 2) (idx1 t).1.2.1 (ix2 p j)))

theorem blk1 : (iblk1 V c 1 t : S768x1024.Idx → EReal) = V c main_v6 :=
  funext fun y => congrArg _ (funext fun a => Fin.ext (win1_1.rect_emb_val_of_index_zero t a ((idx1 t).2.1 a) y))
theorem blk2 : (iblk1 V c 2 t : S1x1024.Idx → EReal) = V c main_v9 :=
  funext fun y => congrArg _ (funext fun a => Fin.ext (win1_2.rect_emb_val_of_index_zero t a ((idx1 t).2.2.1 a) y))
theorem blk3 : (iblk1 V c 3 t : S1024x10000.Idx → EReal) = V c main_v8 :=
  funext fun y => congrArg _ (funext fun a => Fin.ext (win1_3.rect_emb_val_of_index_zero t a ((idx1 t).2.2.2.1 a) y))
theorem blk4 : (iblk1 V c 4 t : S1x10000.Idx → EReal) = V c main_v10 :=
  funext fun y => congrArg _ (funext fun a => Fin.ext (win1_4.rect_emb_val_of_index_zero t a ((idx1 t).2.2.2.2 a) y))

theorem emb5 (p : Fin 128) (hb : t.val * 128 + p.val < 2048) (q : Fin 10000) :
    (((cfg1.win 5).blk t).view.emb (ix2 p q) : S2048x10000.Idx) = ix2 (⟨t.val * 128 + p.val, hb⟩ : Fin 2048) q :=
  Shape.idx_ext₂ ((win1_5.rect_emb_val t (ix2 p q) (0 : Fin 2)).trans (congrArg (· * 128 + p.val) (idx1 t).1.2.2.1))
    (win1_5.rect_emb_val_of_index_zero t (1 : Fin 2) (idx1 t).1.2.2.2 (ix2 p q))

theorem flushed5_eq :
    (dat1 (F := Ideal) V c).flushed 5 t
      = ((cfg1.win 5).blk t).view.read (Elt Ideal) (Cert.Spec.mlp (V c main_v3) (V c main_v6) (V c main_v9) (V c main_v8) (V c main_v10)) := by
  show (cfg1.win 5).cut (grid1.coords t) ((dat1 V c).after 5 t) = _
  rw [after1_5]
  unfold out1_5
  rw [View.canon_unit_zero hz]
  simp only [View.ld_unit_zero (S := S128x768) hz, View.ld_unit_zero (S := S768x1024) hz, View.ld_unit_zero (S := S1x1024) hz,
    View.ld_unit_zero (S := S1024x10000) hz, View.ld_unit_zero (S := S1x10000) hz]
  funext y
  obtain ⟨p, q, rfl⟩ : ∃ (p : Fin 128) (q : Fin 10000), y = ix2 p q := ⟨y 0, y 1, eq_ix2 y⟩
  have hb : t.val * 128 + p.val < 2048 := by
    have := lt_of_lt_of_eq t.isLt N_1
    have := p.isLt
    omega
  show tailVec (logitsVec _ _ _ _ _) (ix2 p q) = Cert.Spec.mlp _ _ _ _ _ (((cfg1.win 5).blk t).view.emb (ix2 p q))
  rw [emb5 t p hb q, tailVec_apply, blk1, blk2, blk3, blk4]
  refine congrArg (fun L => Cert.Spec.logSoftmaxRow L q) (funext fun o => ?_)
  rw [logitsVec_apply]
  show _ = Cert.Spec.logit (V c main_v3) (V c main_v6) (V c main_v9) (V c main_v8) (V c main_v10) (⟨t.val * 128 + p.val, hb⟩ : Fin 2048) o
  unfold Cert.Spec.logit Cert.Spec.hidden
  simp only [hiddenVec_apply, blk0 V c t p hb]

/-- Row `r` is row `r % 128` of block `r / 128`. -/
theorem cover5 (i : S2048x10000.Idx) : ∃ t : Fin cfg1.N, (cfg1.win 5).flush t = true ∧ i ∈ ((cfg1.win 5).blk t).view.set := by
  have hi0 : (i 0).val < 2048 := (i 0).isLt
  have ht : (i 0).val / 128 < cfg1.N := lt_of_lt_of_eq (by omega : (i 0).val / 128 < 16) N_1.symm
  refine ⟨⟨(i 0).val / 128, ht⟩, flush1_5 _, ?_⟩
  exact (congrArg (· ∈ _) ((emb5 ⟨_, ht⟩ ⟨(i 0).val % 128, Nat.mod_lt _ (by decide)⟩ (by show (i 0).val / 128 * 128 + (i 0).val % 128 < 2048; omega) (i 1)).trans
    (Shape.idx_ext₂ (y := i) (by show (i 0).val / 128 * 128 + (i 0).val % 128 = (i 0).val; omega) rfl))).mp (View.emb_mem_set _ _)

/-- Every point writes back its block of the network's value, and the blocks cover the array. -/
theorem arrAt1_out :
    ((dat1 (F := Ideal) V c).arrAt 5 cfg1.N : S2048x10000.Idx → EReal)
      = Cert.Spec.mlp (V c main_v3) (V c main_v6) (V c main_v9) (V c main_v8) (V c main_v10) :=
  (dat1 (F := Ideal) V c).arrAt_eq_of_cover 5 _ (fun t _ => flushed5_eq V c t) cover5

end Cert.KernelIdeal.Val1

end
-- ==== Proof.KI.Glue.lean ====
import proofs.«408609_j52080773431571_2_alg».proof.Proof.Gen.KernelIdeal.Launch
import proofs.«408609_j52080773431571_2_alg».proof.Proof.Spec
import Idealize.ShloMosaic.Lib.StableHlo.Run
import Idealize.ShloMosaic.Lib.ValueLayout
import Idealize.ShloMosaic.Lib.KernelVsHost

noncomputable section

namespace Cert.KernelIdeal.Glue

open Idealize.ShloMosaic Idealize.ShloMosaic.TcCoe Idealize.ShloMosaic.ValueIdx Idealize.ShloMosaic.StableHlo
open Cert.KernelIdeal Cert.KernelIdeal.Gen

variable (Vin : Valuation τ sig (Elt Ideal))

/-- The buffers after the three stretches between the regions. -/
abbrev mid : Valuation τ sig (Elt Ideal) :=
  StableHlo.after (hostOps1_2 (F := Ideal)) (StableHlo.after (hostOps1_1 (F := Ideal)) (StableHlo.after (hostOps1 (F := Ideal)) Vin))

/-- A vector recast as one row: entry (0, j) is entry j. -/
theorem row_cast {n : Nat} (v : Cert.Spec.RV n) (h : (⟨1, ![n]⟩ : Shape).ShapeCasts ⟨2, ![1, n]⟩) :
    shapeCast ⟨2, ![1, n]⟩ v h = Cert.Spec.row v :=
  funext fun i => (congrArg _ (eq_ix2 i)).trans (shapeCast_a_1a_apply v h (i 0) (i 1))

/-- Entry (r, 0) of the column is word r: the two row-major positions agree. -/
theorem glue_v0 :
    ((StableHlo.after (hostOps0 (F := Ideal)) Vin) (Proc.devRef .tc main_v0) : S2048x1.Idx → BitVec 32)
      = Cert.Spec.col (Vin (Proc.devRef .tc main_arg1)) := by
  after_results
  refine funext fun (i : S2048x1.Idx) => ?_
  show shapeCast S2048x1 (Vin (Proc.devRef .tc main_arg1)) shapeCasts_S2048_S2048x1 i = _
  refine (shapeCast_apply _ _ i (ix1 (i 0)) ?_).trans rfl
  rw [Shape.rowMajor_val_one, Shape.rowMajor_val_two]
  have h1 : (i 1).val < 1 := idx2_lt1 i
  show (i 0).val = (i 0).val * 1 + (i 1).val
  omega

theorem glue_v1 :
    ((StableHlo.after (hostOps0 (F := Ideal)) Vin) (Proc.devRef .tc main_v1) : S10000x128.Idx → EReal)
      = Vin (Proc.devRef .tc main_arg6) := by
  after_results
  rfl

theorem glue_v2 :
    ((StableHlo.after (hostOps0 (F := Ideal)) Vin) (Proc.devRef .tc main_v2) : S50000x256.Idx → EReal)
      = Vin (Proc.devRef .tc main_arg7) := by
  after_results
  rfl

/-- Inside the padded source the transpose is read; outside, the pad value, a conversion of the integer 0. -/
theorem glue_v6 :
    ((mid Vin) (Proc.devRef .tc main_v6) : S768x1024.Idx → EReal)
      = Cert.Spec.w1pad (Vin (Proc.devRef .tc main_arg8)) := by
  after_results
  refine funext fun (i : S768x1024.Idx) => ?_
  show pad S768x1024 ![0, 0] ![121, 0] ![0, 0]
      (transpose S647x1024 [1, 0] (Vin (Proc.devRef .tc main_arg8)) transposes_S1024x647_S647x1024_1_0)
      (sitofp (F := Ideal) .f32 (constantI S_ 32 0#32)) pads_S647x1024_S768x1024_01210_000 h_S_ i
    = (if h : (i 0).val < 647 then (Vin (Proc.devRef .tc main_arg8) : S1024x647.Idx → EReal) (ix2 (i 1) ⟨(i 0).val, h⟩) else (0 : EReal))
  by_cases h : (i 0).val < 647
  · rw [dif_pos h]
    refine (pad_apply_of_inside _ _ _ _ _ _ _ i (ix2 (⟨(i 0).val, h⟩ : Fin 647) (i 1)) ?_).trans (transpose_ix2_apply _ _ _ _)
    intro a
    match a with
    | ⟨0, _⟩ => show (i 0).val = 0 + (i 0).val * (0 + 1); omega
    | ⟨1, _⟩ => show (i 1).val = 0 + (i 1).val * (0 + 1); omega
  · rw [dif_neg h]
    refine (pad_apply_of_not_inside _ _ _ _ _ _ _ i (⟨0, by decide⟩ : Fin S647x1024.rank) ?_).trans ?_
    · show ¬(0 ≤ (i 0).val ∧ ((i 0).val - 0) % (0 + 1) = 0 ∧ ((i 0).val - 0) / (0 + 1) < 647)
      omega
    · show (((0#32 : BitVec 32).toInt : ℝ) : EReal) = 0
      simp

theorem glue_v8 :
    ((mid Vin) (Proc.devRef .tc main_v8) : S1024x10000.Idx → EReal)
      = Cert.Spec.w2t (Vin (Proc.devRef .tc main_arg10)) := by
  after_results
  exact funext fun i => (congrArg _ (eq_ix2 i)).trans (transpose_ix2_apply _ _ (i 0) (i 1))

theorem glue_v9 :
    ((mid Vin) (Proc.devRef .tc main_v9) : S1x1024.Idx → EReal)
      = Cert.Spec.row (Vin (Proc.devRef .tc main_arg9)) := by
  after_results
  exact row_cast _ _

theorem glue_v10 :
    ((mid Vin) (Proc.devRef .tc main_v10) : S1x10000.Idx → EReal)
      = Cert.Spec.row (Vin (Proc.devRef .tc main_arg11)) := by
  after_results
  exact row_cast _ _

theorem glue1_keep_v3 :
    (mid Vin) (Proc.devRef .tc main_v3) = Vin (Proc.devRef .tc main_v3) := by
  after_results

end Cert.KernelIdeal.Glue
-- ==== Proof.KI.Chase.lean ====
import proofs.«408609_j52080773431571_2_alg».proof.Proof.KI.Run
import proofs.«408609_j52080773431571_2_alg».proof.Proof.KI.R0Value
import proofs.«408609_j52080773431571_2_alg».proof.Proof.KI.R1Value
import proofs.«408609_j52080773431571_2_alg».proof.Proof.KI.Glue

set_option maxRecDepth 16384

noncomputable section

namespace Cert.KernelIdeal.Chase

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer the first stretch does not write enters the first region as launched. -/
theorem in0_arg (r : Ref sig .tc) (h : r ∉ (wr0 : List (Ref sig .tc))) :
    V1 (F := Ideal) m ρ c r = m ((c : Thread nD τ).loc r) := W1_of m ρ c r h

/-- So it does the second stretch, if it is no array of the first region either. -/
theorem W2_arg (r : Ref sig .tc) (h : r ∉ (wr0 : List (Ref sig .tc))) (hw : ∀ w, Pipeline.arrRef spec0 w ≠ r) :
    W2 (F := Ideal) m ρ c (Proc.devRef .tc r) = m ((c : Thread nD τ).loc r) :=
  (W2_of_ne m ρ c r hw).trans (W1_of m ρ c r h)

theorem in0_v0 : (V1 (F := Ideal) m ρ c main_v0 : S2048x1.Idx → BitVec 32) = Cert.Spec.col (m ((c : Thread nD τ).loc main_arg1)) :=
  Glue.glue_v0 (W0 m ρ c)
theorem in0_v1 : (V1 (F := Ideal) m ρ c main_v1 : S10000x128.Idx → EReal) = (m ((c : Thread nD τ).loc main_arg6)) :=
  Glue.glue_v1 (W0 m ρ c)
theorem in0_v2 : (V1 (F := Ideal) m ρ c main_v2 : S50000x256.Idx → EReal) = (m ((c : Thread nD τ).loc main_arg7)) :=
  Glue.glue_v2 (W0 m ρ c)

/-- No stretch between the regions writes the feature array: the second region finds it as the first left it. -/
theorem in1_v3 : (V5 (F := Ideal) m ρ c main_v3 : S2048x768.Idx → EReal) = (dat0 (F := Ideal) (V1 m ρ) c).arrAt 8 cfg0.N :=
  (Glue.glue1_keep_v3 (W2 m ρ c)).trans (W2_arr m ρ c 8)

theorem in1_v6 : (V5 (F := Ideal) m ρ c main_v6 : S768x1024.Idx → EReal) = Cert.Spec.w1pad (m ((c : Thread nD τ).loc main_arg8)) :=
  (Glue.glue_v6 (W2 m ρ c)).trans (congrArg Cert.Spec.w1pad (W2_arg m ρ c main_arg8 (by decide) (by decide)))
theorem in1_v8 : (V5 (F := Ideal) m ρ c main_v8 : S1024x10000.Idx → EReal) = Cert.Spec.w2t (m ((c : Thread nD τ).loc main_arg10)) :=
  (Glue.glue_v8 (W2 m ρ c)).trans (congrArg Cert.Spec.w2t (W2_arg m ρ c main_arg10 (by decide) (by decide)))
theorem in1_v9 : (V5 (F := Ideal) m ρ c main_v9 : S1x1024.Idx → EReal) = Cert.Spec.row (m ((c : Thread nD τ).loc main_arg9)) :=
  (Glue.glue_v9 (W2 m ρ c)).trans (congrArg Cert.Spec.row (W2_arg m ρ c main_arg9 (by decide) (by decide)))
theorem in1_v10 : (V5 (F := Ideal) m ρ c main_v10 : S1x10000.Idx → EReal) = Cert.Spec.row (m ((c : Thread nD τ).loc main_arg11)) :=
  (Glue.glue_v10 (W2 m ρ c)).trans (congrArg Cert.Spec.row (W2_arg m ρ c main_arg11 (by decide) (by decide)))

/-- The result buffer holds the second stage of the second region's five input arrays, each read off above. -/
theorem W6_result (c : Dev nD) :
    (W6 (F := Ideal) m ρ c (Proc.devRef .tc main_v11) : S2048x10000.Idx → EReal)
      = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Val1.arrAt1_out (V5 m ρ) c).trans ?_)
  rw [in1_v3 m ρ c, Val0.arrAt0_out (V1 m ρ) c, in0_v0 m ρ c, in0_arg m ρ c main_arg2 (by decide), in0_arg m ρ c main_arg3 (by decide),
    in0_arg m ρ c main_arg4 (by decide), in0_arg m ρ c main_arg5 (by decide), in0_arg m ρ c main_arg0 (by decide), in0_v1 m ρ c, in0_v2 m ρ c,
    in1_v6 m ρ c, in1_v9 m ρ c, in1_v8 m ρ c, in1_v10 m ρ c]
  rfl

end Cert.KernelIdeal.Chase

end
-- ==== Proof.RefBase.lean ====
import proofs.«408609_j52080773431571_2_alg».proof.Proof.RefRun
import proofs.«408609_j52080773431571_2_alg».proof.Proof.RefRead
import proofs.«408609_j52080773431571_2_alg».proof.Proof.Spec
-- ==== Proof.LibGatherRows.lean ====
import Idealize.ShloMosaic.Lib.ValueIdx

noncomputable section

namespace Cert.Lib.GatherRows

open Idealize.ShloMosaic Idealize.ShloMosaic.ValueIdx

variable {α : Type}

/-- The dimension numbers of a gather of whole rows of an [N, C] table at [R, 1] start indices into an [R, C] result. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result index (n, c) reads its one start word at (n, 0), whatever the column. -/
theorem rowDims_siIdx {N R C : Nat}
    (wf : GatherDims.WF ⟨2, ![N, C]⟩ ⟨2, ![R, 1]⟩ ⟨2, ![R, C]⟩ [1] [0] [] [0] [] 1 ![1, C]) (n : Fin R) (c : Fin C) :
    (rowDims N R C wf).siIdx (ix2 n c) ⟨List.idxOf (0 : Fin 2) (rowDims N R C wf).startIndexMap,
        List.idxOf_lt_length_iff.2 (List.mem_singleton.mpr rfl)⟩ = ix2 n (0 : Fin 1) :=
  funext fun b => Fin.ext (match b with | ⟨0, _⟩ | ⟨1, _⟩ => rfl)

/-- A gather of rows read at (n, c) is the table at the row of the start word at (n, 0), read signed and clamped into [0, N − 1], and at column c. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (n : Fin R) (c : Fin C) :
    Host.gather (rowDims N R C wf) x idx (ix2 n c)
      = x (ix2 ⟨min (idx (ix2 n (0 : Fin 1))).toInt.toNat (N - 1), by omega⟩ c) := by
  unfold Host.gather
  congr 1
  funext a
  refine Fin.ext ?_
  have h10 : ¬ (1 : Fin 2) = 0 := by decide
  match a with
  | ⟨0, _⟩ =>
    show (rowDims N R C wf).start (ix2 n c) idx 0 + (rowDims N R C wf).batchCoord (ix2 n c) 0
      + (rowDims N R C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowDims N R C wf).startIndexMap from List.mem_singleton.mpr rfl),
      rowDims_siIdx wf n c]
    rfl
  | ⟨1, _⟩ =>
    show (rowDims N R C wf).start (ix2 n c) idx 1 + (rowDims N R C wf).batchCoord (ix2 n c) 1
      + (rowDims N R C wf).offCoord (ix2 n c) 1 = c.val
    rw [GatherDims.batchCoord_eq_zero _ _ _ List.not_mem_nil]
    unfold GatherDims.start GatherDims.offCoord
    rw [dif_neg (show ¬ (1 : Fin 2) ∈ (rowDims N R C wf).startIndexMap from fun h => h10 (List.mem_singleton.mp h)),
      dif_pos (show (1 : Fin 2) ∈ (rowDims N R C wf).sKept from
        (GatherDims.mem_sKept _ _).mpr ⟨fun h => h10 (List.mem_singleton.mp h), List.not_mem_nil⟩)]
    exact Nat.zero_add _

end Cert.Lib.GatherRows

end
-- ==== Proof.LibScatterSet.lean ====
import Idealize.ShloMosaic.PureOps.ShapeOps

namespace Idealize.ShloMosaic

open Classical in
/-- A scatter that overwrites with one constant v holds v at i exactly when some update index lands at i, and the operand's element otherwise: every write there writes v, so the order of the updates does not matter. -/
theorem Host.scatter_set_const {α : Type} {s si u : Shape} {w : Nat} (d : ScatterDims s si u) (x : s.Idx → α)
    (idx : IVec si w) (v : α) (i : s.Idx) :
    Host.scatter d (fun _ b => b) x idx (fun _ => v) i
      = if ∃ j : u.Idx, d.resultIdx? j idx = some i then v else x i := by
  have hiff : (∃ j : u.Idx, d.resultIdx? j idx = some i)
      ↔ ∃ n ∈ List.finRange u.numel, d.resultIdx? (u.rowMajor.symm n) idx = some i :=
    ⟨fun ⟨j, h⟩ => ⟨u.rowMajor j, List.mem_finRange _, by rw [Equiv.symm_apply_apply]; exact h⟩, fun ⟨n, _, h⟩ => ⟨_, h⟩⟩
  simp only [hiff]
  unfold Host.scatter
  generalize List.finRange u.numel = l
  induction l generalizing x with
  | nil => simp
  | cons n l ih =>
    have hc : (∃ m ∈ n :: l, d.resultIdx? (u.rowMajor.symm m) idx = some i)
        ↔ d.resultIdx? (u.rowMajor.symm n) idx = some i ∨ ∃ m ∈ l, d.resultIdx? (u.rowMajor.symm m) idx = some i := by simp
    rw [List.foldl_cons, ih]
    simp only [hc]
    by_cases hl : ∃ m ∈ l, d.resultIdx? (u.rowMajor.symm m) idx = some i
    · rw [if_pos hl, if_pos (Or.inr hl)]
    · rw [if_neg hl]
      cases hn : d.resultIdx? (u.rowMajor.symm n) idx with
      | none => rw [if_neg (fun h => h.elim nofun hl)]
      | some i₀ =>
        by_cases hi : i = i₀
        · rw [if_pos (Or.inl (congrArg some hi.symm))]
          simp only [hi, if_true]
        · rw [if_neg (fun h => h.elim (fun h => hi (Option.some.inj h).symm) hl)]
          simp only [if_neg hi]

end Idealize.ShloMosaic
-- ==== Proof.RefEmbLemmas.lean ====
import Idealize.ShloMosaic.Lib.Pipeline.Value
import Idealize.ShloMosaic.Lib.DynamicIndex
import Idealize.ShloMosaic.Lib.Affine
import proofs.«408609_j52080773431571_2_alg».proof.Proof.LibGatherRows
import proofs.«408609_j52080773431571_2_alg».proof.Proof.LibScatterSet
import proofs.«408609_j52080773431571_2_alg».proof.Proof.Spec

noncomputable section

namespace Cert.RefVal

open Idealize.ShloMosaic Idealize.ShloMosaic.ValueIdx

/-- Adding the extent where a word is negative leaves a word that is not negative. -/
theorem wrap_id (w N : BitVec 32) (h : 0 ≤ w.toInt) :
    Scalar.select (IntOp.cmpi .slt w 0#32) (IntOp.addi w N) w = w := by
  have hn : ¬ IntOp.cmpi .slt w 0#32 = 1#1 := by
    rw [IntOp.cmpi_slt]
    simp only [BitVec.toInt_zero]
    omega
  exact if_neg hn

/-- A word that is not negative is the word of a number below 2 ^ 31 exactly when it reads as that number. -/
theorem word_eq_ofNat_iff (w : BitVec 32) (h0 : 0 ≤ w.toInt) (v : Nat) (hv : v < 2 ^ 31) :
    w = BitVec.ofNat 32 v ↔ w.toInt.toNat = v := by
  constructor
  · intro h
    rw [h, toInt_ofNat_of_lt hv]
    omega
  · intro h
    apply BitVec.eq_of_toNat_eq
    rw [BitVec.toNat_ofNat, Nat.mod_eq_of_lt (by omega)]
    have hc := BitVec.toInt_eq_toNat_cond w
    have hw := w.isLt
    split at hc <;> omega

/-- Only the entry the word names has a nonzero coefficient. -/
theorem onehot_sum {V : Nat} (hV : V ≤ 2 ^ 31) (w : BitVec 32) (h0 : 0 ≤ w.toInt) (hlt : w.toInt < V)
    (f : Fin V → EReal) :
    ∑ v : Fin V, (if w = BitVec.ofNat 32 v.val then (1 : EReal) else 0) * f v = f ⟨w.toInt.toNat, by omega⟩ := by
  rw [Finset.sum_eq_single (⟨w.toInt.toNat, by omega⟩ : Fin V)]
  · rw [if_pos ((word_eq_ofNat_iff w h0 _ (by omega)).2 rfl), one_mul]
  · intro v _ hne
    have hv := v.isLt
    rw [if_neg (fun h => hne (Fin.ext ((word_eq_ofNat_iff w h0 v.val (by omega)).1 h).symm)), zero_mul]
  · exact fun h => absurd (Finset.mem_univ _) h

/-- An update lands at i when on every axis its start plus its window coordinate is i's coordinate. -/
theorem resultIdx_eq_some {s si u : Shape} {w : Nat} (d : ScatterDims s si u) (j : u.Idx) (idx : IVec si w) (i : s.Idx)
    (h : ∀ a, d.start j idx a + d.window j a = (i a).val) : d.resultIdx? j idx = some i := by
  unfold ScatterDims.resultIdx?
  rw [dif_pos]
  · exact congrArg some (funext fun a => Fin.ext (by show (_ : ℤ).toNat = _; rw [h a]; omega))
  · exact fun a => by have := (i a).isLt; rw [h a]; omega

section Scatter
variable {N K C : Nat} (wf : ScatterDims.WF ⟨2, ![N, C]⟩ ⟨3, ![N, K, 2]⟩ ⟨2, ![N, K]⟩ [] [0, 1] [0, 1] 2)

/-- Scatter one element per update into an [N, C] table: index component 0 names the row, component 1 the column. -/
abbrev bagScatter : ScatterDims ⟨2, ![N, C]⟩ ⟨3, ![N, K, 2]⟩ ⟨2, ![N, K]⟩ :=
  { updateWindowDims := [], insertedWindowDims := [0, 1], scatterDimsToOperandDims := [0, 1], indexVectorDim := 2, wf := wf }

/-- Update (b, n) starts on axis a at the word at (b, n, a); both axes are inserted, so no window coordinate is added. -/
theorem bag_start (idx : IVec ⟨3, ![N, K, 2]⟩ 32) (b : Fin N) (n : Fin K) (a : Fin 2) :
    (bagScatter wf).start (ix2 b n) idx a + (bagScatter wf).window (ix2 b n) a = (idx (ix3 b n a)).toInt := by
  have h1 : ∀ a : Fin 2, a ∈ [(0 : Fin 2), 1] := by decide
  have h2 : ∀ a : Fin 2, a ∉ (List.finRange 2).filter (fun x => x ∉ [(0 : Fin 2), 1]) := by decide
  unfold ScatterDims.start ScatterDims.window
  rw [dif_pos (h1 a), dif_neg (show a ∉ (bagScatter wf).sKept from h2 a), Nat.cast_zero, add_zero]
  match a with
  | ⟨0, _⟩ | ⟨1, _⟩ =>
    exact congrArg (fun k => (idx k).toInt) (funext fun e => match e with | ⟨0, _⟩ | ⟨1, _⟩ | ⟨2, _⟩ => rfl)

open Classical in
/-- The scatter of one value v at the pairs (b, col b n) holds v at (b, c) exactly when one of row b's words is c. -/
theorem bag_scatter_apply {α : Type} (x : (⟨2, ![N, C]⟩ : Shape).Idx → α) (idx : IVec ⟨3, ![N, K, 2]⟩ 32) (v : α)
    (col : Fin N → Fin K → ℕ)
    (hrow : ∀ b n, (idx (ix3 b n (0 : Fin 2))).toInt = (b.val : ℤ))
    (hcol : ∀ b n, (idx (ix3 b n (1 : Fin 2))).toInt = (col b n : ℤ)) (hlt : ∀ b n, col b n < C)
    (b : Fin N) (c : Fin C) :
    Host.scatter (bagScatter wf) (fun _ u => u) x idx (fun _ => v) (ix2 b c)
      = if ∃ n : Fin K, col b n = c.val then v else x (ix2 b c) := by
  have hres := fun (b : Fin N) (n : Fin K) => resultIdx_eq_some (bagScatter wf) (ix2 b n) idx (ix2 b ⟨col b n, hlt b n⟩) fun a =>
    (bag_start wf idx b n a).trans (match a with | ⟨0, _⟩ => hrow b n | ⟨1, _⟩ => hcol b n)
  rw [Host.scatter_set_const]
  refine if_congr ⟨?_, fun ⟨n, hn⟩ => ⟨ix2 b n, ?_⟩⟩ rfl rfl
  · rintro ⟨u, hu⟩
    obtain ⟨b', n, rfl⟩ : ∃ (b' : Fin N) (n : Fin K), u = ix2 b' n := ⟨u 0, u 1, eq_ix2 (n0 := N) (n1 := K) u⟩
    rw [hres] at hu
    have he := Option.some.inj hu
    obtain rfl : b' = b := congrFun he 0
    exact ⟨n, congrArg Fin.val (congrFun he 1 : (⟨col b' n, hlt b' n⟩ : Fin C) = c)⟩
  · rw [hres, show (⟨col b n, hlt b n⟩ : Fin C) = c from Fin.ext hn]

end Scatter

/-- At a start word in range the clamp of a row gather does nothing. -/
theorem gather_row_inrange {α : Type} {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (n : Fin R) (c : Fin C)
    (h0 : 0 ≤ (idx (ix2 n (0 : Fin 1))).toInt) (hlt : (idx (ix2 n (0 : Fin 1))).toInt < N) :
    Host.gather (Cert.Lib.GatherRows.rowDims N R C wf) x idx (ix2 n c)
      = x (ix2 ⟨(idx (ix2 n (0 : Fin 1))).toInt.toNat, by omega⟩ c) := by
  rw [Cert.Lib.GatherRows.gather_row_apply hN wf x idx n c]
  congr 2
  apply Fin.ext
  show min (idx (ix2 n (0 : Fin 1))).toInt.toNat (N - 1) = (idx (ix2 n (0 : Fin 1))).toInt.toNat
  omega

open Classical in
/-- Ones scattered into zeros at the pairs (row b, word of (b, n)), the words in range, are the multi-hot matrix. -/
theorem multiHot_scatter {N K C : Nat} (hC : C ≤ 2 ^ 31) (hNlt : N ≤ 2 ^ 31)
    (wf : ScatterDims.WF ⟨2, ![N, C]⟩ ⟨3, ![N, K, 2]⟩ ⟨2, ![N, K]⟩ [] [0, 1] [0, 1] 2)
    (x : (⟨2, ![N, C]⟩ : Shape).Idx → EReal) (hx : ∀ i, x i = 0)
    (R W : (⟨3, ![N, K, 1]⟩ : Shape).Idx → BitVec 32)
    (hc : Shape.Concatenates (([⟨⟨3, ![N, K, 1]⟩, R⟩, ⟨⟨3, ![N, K, 1]⟩, W⟩] : List ((s : Shape) × (s.Idx → BitVec 32))).map (·.1))
      ⟨3, ![N, K, 2]⟩ 2)
    (upd : (⟨2, ![N, K]⟩ : Shape).Idx → EReal) (hu : ∀ i, upd i = 1)
    (ix : (⟨2, ![N, K]⟩ : Shape).Idx → BitVec 32)
    (hR : ∀ b n, R (ix3 b n (0 : Fin 1)) = BitVec.ofNat 32 b.val)
    (hW : ∀ b n, W (ix3 b n (0 : Fin 1)) = ix (ix2 b n))
    (hin : ∀ i, 0 ≤ (ix i).toInt ∧ (ix i).toInt < C)
    (b : Fin N) (v : Fin C) :
    Host.scatter (bagScatter wf) (fun _ u => u) x
        (concatenate ⟨3, ![N, K, 2]⟩ 2 [⟨⟨3, ![N, K, 1]⟩, R⟩, ⟨⟨3, ![N, K, 1]⟩, W⟩] hc) upd (ix2 b v)
      = if ∃ n : Fin K, ix (ix2 b n) = BitVec.ofNat 32 v.val then 1 else 0 := by
  have hv := v.isLt
  rw [funext hu, bag_scatter_apply wf x _ (1 : EReal) (fun b n => (ix (ix2 b n)).toInt.toNat) ?_ ?_ ?_ b v, hx]
  · exact if_congr (exists_congr fun n => (word_eq_ofNat_iff _ (hin _).1 v.val (by omega)).symm) rfl rfl
  · intro b n
    rw [concatenate_pair_apply_left (t := ⟨3, ![N, K, 2]⟩) 2 R W hc (ix3 b n (0 : Fin 2)) rfl (ix3 b n (0 : Fin 1))
      fun e => match e with | ⟨0, _⟩ | ⟨1, _⟩ | ⟨2, _⟩ => rfl, hR]
    exact toInt_ofNat_of_lt (by have := b.isLt; omega)
  · intro b n
    rw [concatenate_pair_apply_right (t := ⟨3, ![N, K, 2]⟩) 2 R W hc (ix3 b n (1 : Fin 2)) rfl rfl (ix3 b n (0 : Fin 1))
      (fun e he => match e with | ⟨0, _⟩ | ⟨1, _⟩ => rfl | ⟨2, _⟩ => absurd rfl he) rfl, hW]
    exact (Int.toNat_of_nonneg (hin _).1).symm
  · intro b n
    have := hin (ix2 b n)
    omega

end Cert.RefVal
-- ==== Proof.RefEmb.lean ====
import proofs.«408609_j52080773431571_2_alg».proof.Proof.RefBase
import proofs.«408609_j52080773431571_2_alg».proof.Proof.RefEmbLemmas
import Idealize.ShloMosaic.Lib.IdealHost

noncomputable section

namespace Cert.RefVal

open Cert.ReferenceIdeal Cert.ReferenceIdeal.Gen Cert.ReferenceIdeal.ReadP Idealize.ShloMosaic Idealize.ShloMosaic.ValueIdx Cert.Spec

variable (x0 : (⟨S2048x7, .f32⟩ : BufTy).Contents (Elt Ideal)) (x1 : (⟨S2048, .i32⟩ : BufTy).Contents (Elt Ideal))
  (x2 x3 : (⟨S2048x8, .i32⟩ : BufTy).Contents (Elt Ideal)) (x4 x5 : (⟨S2048x256, .f32⟩ : BufTy).Contents (Elt Ideal))
  (x6 : (⟨S10000x128, .f32⟩ : BufTy).Contents (Elt Ideal)) (x7 : (⟨S50000x256, .f32⟩ : BufTy).Contents (Elt Ideal))

/-- In range the wrap keeps the category word, the gather reads its row, and that row is the one-hot sum. -/
theorem cat_eq (h : InRangeV 10000 x1) (b : Fin 2048) (s : Fin 128) :
    val_main_v6 (F := Ideal) x1 x6 (ix2 b s) = catRow (col x1) x6 b s := by
  have hw : val_main_v5 (F := Ideal) x1 (ix2 b (0 : Fin 1)) = x1 (ix1 b) := by
    rw [val_main_v5_apply, val_main_v4_apply, val_main_v1_apply, val_main_v3_apply, val_main_v0_apply, val_main_c_apply]
    exact (wrap_id _ _ (h _).1).trans (congrArg x1 (eq_ix1 _))
  have hr := h (ix1 b)
  rw [← hw] at hr
  show Host.gather (Cert.Lib.GatherRows.rowDims 10000 2048 128 Facts₀.gather_S10000x128_S2048x1_S2048x128_1_0_n_n_0_1_1128_wf) x6 _ _ = _
  rw [gather_row_inrange (by norm_num) _ x6 _ b s hr.1 hr.2]
  refine (onehot_sum (V := 10000) (by norm_num) _ hr.1 hr.2 fun v => x6 (ix2 v s)).symm.trans ?_
  rw [hw]
  rfl

/-- A bag's scattered matrix is its multi-hot matrix: each row index is the row's number, each column index the bag's word. -/
theorem hot_eq (h : InRange 50000 x2) (b : Fin 2048) (v : Fin 50000) :
    val_main_v25 (F := Ideal) x2 (ix2 b v) = multiHot x2 b v := by
  unfold multiHot
  refine (multiHot_scatter (N := 2048) (K := 8) (C := 50000) (by norm_num) (by norm_num)
    Facts₀.scatter_S2048x50000_S2048x8x2_S2048x8_n_01_01_2_wf (val_main_v9 (F := Ideal)) (fun i => ?_) (val_main_v21 (F := Ideal))
    (val_main_v22 (F := Ideal) x2) Facts₀.concatenates_S2048x8x1_S2048x8x1_S2048x8x2_d2 (val_main_v24 (F := Ideal)) (fun i => ?_) x2
    (fun b n => ?_) (fun b n => ?_) h b v).trans (by congr)
  · rw [val_main_v9_apply, val_main_cst_apply]
    exact Ideal.ofBits_zero_f32
  · rw [val_main_v24_apply, val_main_cst_5_apply]
    exact Ideal.ofBits_one_f32
  · rw [val_main_v21_apply, val_main_v20_apply, val_main_v14_apply, val_main_v11_apply, val_main_v13_apply, val_main_v10_apply,
      val_main_c_1_apply, val_main_v8_apply, val_main_v7_apply]
    exact wrap_id (BitVec.ofNat 32 b.val) _ (by rw [toInt_ofNat_of_lt (by have := b.isLt; omega)]; omega)
  · rw [val_main_v22_apply, val_main_v19_apply, val_main_v16_apply, val_main_v18_apply, val_main_v15_apply, val_main_c_3_apply]
    exact (wrap_id _ _ (h _).1).trans (congrArg x2 (eq_ix2 _))

/-- A bag's row is its multi-hot row times the table, plus its dense row. -/
theorem bag_eq (h : InRange 50000 x2) (b : Fin 2048) (s : Fin 256) :
    val_main_v46 (F := Ideal) x2 x4 x7 (ix2 b s) = bagRow x2 x7 x4 b s := by
  have hs : ∀ k : Fin 50000, val_main_v25 (F := Ideal) x2 (lidx_main_v45 (ix2 b s) k) * x7 (ridx_main_v45 (ix2 b s) k)
      = multiHot x2 b k * x7 (ix2 k s) := fun k => by
    rw [show lidx_main_v45 (ix2 b s) k = ix2 b k from eq_ix2 _, show ridx_main_v45 (ix2 b s) k = ix2 k s from eq_ix2 _,
      hot_eq x2 h]
  rw [val_main_v46_apply, val_main_v45_apply, Finset.sum_congr rfl fun k _ => hs k]
  rfl

/-- Column j < 647 of a reference feature row is the specification's; the second bag runs the first bag's operations on its own arguments. -/
theorem ref_feat (h1 : InRangeV 10000 x1) (h2 : InRange 50000 x2) (h3 : InRange 50000 x3)
    (b : Fin 2048) (j : Fin 768) (h : j.val < 647) :
    val_main_v49 (F := Ideal) x0 x1 x2 x3 x4 x5 x6 x7 (ix2 b ⟨j.val, h⟩)
      = feat (col x1) x2 x3 x4 x5 x0 x6 x7 b j := by
  have hi : ∀ {C : Nat} (i : Fin C) (e : Fin 2), e ≠ 1 → (ix2 b i e).val = (ix2 b (⟨j.val, h⟩ : Fin 647) e).val :=
    fun _ e he => match e with | ⟨0, _⟩ => rfl | ⟨1, _⟩ => absurd rfl he
  unfold val_main_v49 feat
  by_cases c1 : j.val < 128
  · rw [dif_pos c1]
    refine Eq.trans (concatenate_apply_piece (1 : Fin 2) _ _ (ix2 b ⟨j.val, h⟩) 0 (by show (0 : Nat) < 4; omega) S2048x128 _ rfl rfl 0 rfl
      (ix2 b ⟨j.val, c1⟩) ?_ (Nat.zero_add _)) (cat_eq x1 x6 h1 b _)
    exact fun e he => hi _ e he
  · rw [dif_neg c1]
    by_cases c2 : j.val < 384
    · rw [dif_pos c2]
      refine Eq.trans (concatenate_apply_piece (1 : Fin 2) _ _ (ix2 b ⟨j.val, h⟩) 1 (by show (1 : Nat) < 4; omega) S2048x256 _ rfl rfl 128 rfl
        (ix2 b ⟨j.val - 128, by omega⟩) ?_ ?_) (bag_eq x2 x4 x7 h2 b _)
      · exact fun e he => hi _ e he
      · show 128 + (j.val - 128) = j.val; omega
    · rw [dif_neg c2]
      by_cases c3 : j.val < 640
      · rw [dif_pos c3]
        refine Eq.trans (concatenate_apply_piece (1 : Fin 2) _ _ (ix2 b ⟨j.val, h⟩) 2 (by show (2 : Nat) < 4; omega) S2048x256 _ rfl rfl 384 rfl
          (ix2 b ⟨j.val - 384, by omega⟩) ?_ ?_) (bag_eq x3 x5 x7 h3 b _)
        · exact fun e he => hi _ e he
        · show 384 + (j.val - 384) = j.val; omega
      · rw [dif_neg c3, dif_pos h]
        refine concatenate_apply_piece (1 : Fin 2) _ _ (ix2 b ⟨j.val, h⟩) 3 (by show (3 : Nat) < 4; omega) S2048x7 x0 rfl rfl 640 rfl
          (ix2 b ⟨j.val - 640, by omega⟩) ?_ ?_
        · exact fun e he => hi _ e he
        · show 640 + (j.val - 640) = j.val; omega

end Cert.RefVal
-- ==== Proof.RefMlp.lean ====
import proofs.«408609_j52080773431571_2_alg».proof.Proof.RefBase

noncomputable section

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open scoped BigOperators

namespace Cert.RefVal

theorem ofBits_ninf : Ideal.ofBits .f32 0xFF800000#32 = (⊥ : EReal) := by simp [Ideal.ofBits, Ideal.ieee]

/-- The 121 padding columns of a feature row are zero, so they add nothing to its product with the padded matrix. -/
theorem sum_pad (X : Cert.Spec.RA 2048 647) (Xpad : Cert.Spec.RA 2048 768) (W1 : Cert.Spec.RA 1024 647)
    (hX : ∀ (b : Fin 2048) (j : Fin 768) (h : j.val < 647), Xpad (ix2 b j) = X (ix2 b ⟨j.val, h⟩))
    (hZ : ∀ (b : Fin 2048) (j : Fin 768), 647 ≤ j.val → Xpad (ix2 b j) = 0) (b : Fin 2048) (h : Fin 1024) :
    ∑ j : Fin 768, Xpad (ix2 b j) * Cert.Spec.w1pad W1 (ix2 j h) = ∑ k : Fin 647, X (ix2 b k) * W1 (ix2 h k) := by
  have h2 : ∀ i : Fin 121, Xpad (ix2 b (Fin.natAdd 647 i)) * Cert.Spec.w1pad W1 (ix2 (Fin.natAdd 647 i) h) = 0 := fun i => by
    rw [hZ b _ (Nat.le_add_right 647 i.val), zero_mul]
  show ∑ j : Fin (647 + 121), Xpad (ix2 b j) * Cert.Spec.w1pad W1 (ix2 j h) = _
  rw [Fin.sum_univ_add, Finset.sum_eq_zero fun i _ => h2 i, add_zero]
  exact Finset.sum_congr rfl fun i _ => by
    rw [hX b (Fin.castAdd 121 i) i.isLt]
    exact congrArg (_ * ·) (dif_pos i.isLt)

section
variable (b : Fin 2048) (h : Fin 1024) (o : Fin 10000)
theorem lidx51 (k : Fin 647) : lidx_main_v51 (ix2 b h) k = ix2 b k := eq_ix2 _
theorem ridx51 (k : Fin 647) : idx_main_v50 (ridx_main_v51 (ix2 b h) k) = ix2 h k := eq_ix2 _
theorem bias1 : idx_main_v52 (idx_main_v53 (ix2 b h)) = ix1 h := eq_ix1 _
theorem lidx57 (k : Fin 1024) : lidx_main_v57 (ix2 b o) k = ix2 b k := eq_ix2 _
theorem ridx57 (k : Fin 1024) : idx_main_v56 (ridx_main_v57 (ix2 b o) k) = ix2 o k := eq_ix2 _
theorem bias2 : idx_main_v58 (idx_main_v59 (ix2 b o)) = ix1 o := eq_ix1 _
theorem rowOfMax : idx_main_call1_v3 (idx_main_call1_v4 (ix2 b o)) = ix1 b := eq_ix1 _
theorem rowOfSum : idx_main_call1_v8 (idx_main_call1_v10 (ix2 b o)) = ix1 b := eq_ix1 _
theorem colOfSum (k : Fin 10000) : idx_main_call1_v7 (ix1 b) k = ix2 b k := eq_ix2 _
end

variable (x0 : (⟨S2048x7, .f32⟩ : BufTy).Contents (Elt Ideal)) (x1 : (⟨S2048, .i32⟩ : BufTy).Contents (Elt Ideal))
  (x2 x3 : (⟨S2048x8, .i32⟩ : BufTy).Contents (Elt Ideal)) (x4 x5 : (⟨S2048x256, .f32⟩ : BufTy).Contents (Elt Ideal))
  (x6 : (⟨S10000x128, .f32⟩ : BufTy).Contents (Elt Ideal)) (x7 : (⟨S50000x256, .f32⟩ : BufTy).Contents (Elt Ideal))
  (x8 : (⟨S1024x647, .f32⟩ : BufTy).Contents (Elt Ideal)) (x9 : (⟨S1024, .f32⟩ : BufTy).Contents (Elt Ideal))
  (x10 : (⟨S10000x1024, .f32⟩ : BufTy).Contents (Elt Ideal)) (x11 : (⟨S10000, .f32⟩ : BufTy).Contents (Elt Ideal))
  (Xpad : Cert.Spec.RA 2048 768)
  (hX : ∀ (b : Fin 2048) (j : Fin 768) (h : j.val < 647), Xpad (ix2 b j) = val_main_v49 (F := Ideal) x0 x1 x2 x3 x4 x5 x6 x7 (ix2 b ⟨j.val, h⟩))
  (hZ : ∀ (b : Fin 2048) (j : Fin 768), 647 ≤ j.val → Xpad (ix2 b j) = 0)

/-- The row maximum of the log-softmax is the fold of max over the row from the least extended real. -/
theorem rowmax_stage (b : Fin 2048) :
    val_main_call1_v0 (F := Ideal) x0 x1 x2 x3 x4 x5 x6 x7 x8 x9 x10 x11 (ix1 b)
      = (Finset.univ : Finset (Fin 10000)).fold max ⊥ (fun o => val_main_v60 (F := Ideal) x0 x1 x2 x3 x4 x5 x6 x7 x8 x9 x10 x11 (ix2 b o)) := by
  unfold val_main_call1_v0
  generalize val_main_v60 (F := Ideal) x0 x1 x2 x3 x4 x5 x6 x7 x8 x9 x10 x11 = y
  have h : S2048x10000.Reduces [1] S2048 := by decide
  refine (Host.reduce_eq_fold_single (FloatOps.maximumf (F := Ideal) (φ := .f32)) (y : S2048x10000.Idx → Ideal .f32)
    (val_main_call1_cst (F := Ideal)) reducesTo_S2048x10000_S2048_d1 h h_S_ (ix1 b)).trans ?_
  have hf : (y ∘ h.lift (ix1 b)) = fun o : Fin 10000 => y (ix2 b o) := funext fun k => congrArg y (eq_ix2 _)
  rw [show val_main_call1_cst (F := Ideal) (Shape.Idx.first h_S_) = (⊥ : EReal) from ofBits_ninf]
  exact congrArg (fun f => Finset.fold max (⊥ : EReal) f (Finset.univ : Finset (Fin 10000))) hf

include hX hZ

theorem hidden_stage (b : Fin 2048) (h : Fin 1024) :
    val_main_v55 (F := Ideal) x0 x1 x2 x3 x4 x5 x6 x7 x8 x9 (ix2 b h)
      = Cert.Spec.hidden Xpad (Cert.Spec.w1pad x8) (Cert.Spec.row x9) b h := by
  rw [val_main_v55_apply, val_main_v54_apply, val_main_v51_apply, val_main_v53_apply, val_main_v52_apply,
    val_main_call0_v0_apply, val_main_call0_cst_apply, bias1]
  simp only [val_main_v50_apply, lidx51, ridx51]
  unfold Cert.Spec.hidden
  rw [sum_pad (val_main_v49 (F := Ideal) x0 x1 x2 x3 x4 x5 x6 x7) Xpad x8 hX hZ b h]
  simp only [Ideal.maximumf_def, Ideal.addf_def, Ideal.ofBits_def, Ideal.ofBits_zero_f32]
  rfl

theorem logit_stage (b : Fin 2048) (o : Fin 10000) :
    val_main_v60 (F := Ideal) x0 x1 x2 x3 x4 x5 x6 x7 x8 x9 x10 x11 (ix2 b o)
      = Cert.Spec.logit Xpad (Cert.Spec.w1pad x8) (Cert.Spec.row x9) (Cert.Spec.w2t x10) (Cert.Spec.row x11) b o := by
  rw [val_main_v60_apply, val_main_v57_apply, val_main_v59_apply, val_main_v58_apply, bias2]
  simp only [val_main_v56_apply, lidx57, ridx57, hidden_stage x0 x1 x2 x3 x4 x5 x6 x7 x8 x9 Xpad hX hZ, Ideal.addf_def]
  rfl

theorem shifted_stage (b : Fin 2048) (o : Fin 10000) :
    val_main_call1_v5 (F := Ideal) x0 x1 x2 x3 x4 x5 x6 x7 x8 x9 x10 x11 (ix2 b o)
      = Cert.Spec.shifted (Cert.Spec.logit Xpad (Cert.Spec.w1pad x8) (Cert.Spec.row x9) (Cert.Spec.w2t x10) (Cert.Spec.row x11) b) o := by
  rw [val_main_call1_v5_apply, val_main_call1_v4_apply, val_main_call1_v3_apply, val_main_call1_v2_apply,
    val_main_call1_v1_apply, val_main_call1_cst_0_apply, rowOfMax, rowmax_stage]
  simp only [logit_stage x0 x1 x2 x3 x4 x5 x6 x7 x8 x9 x10 x11 Xpad hX hZ, Ideal.subf_def, Ideal.maximumf_def, Ideal.ofBits_def, ofBits_ninf]
  rfl

/-- From the feature rows on, the reference and the specification compute the same layers and the same log-softmax. -/
theorem ref_mlp :
    val_main_v61 (F := Ideal) x0 x1 x2 x3 x4 x5 x6 x7 x8 x9 x10 x11
      = Cert.Spec.mlp Xpad (Cert.Spec.w1pad x8) (Cert.Spec.row x9) (Cert.Spec.w2t x10) (Cert.Spec.row x11) := by
  funext i
  obtain ⟨b, o, rfl⟩ : ∃ (b : Fin 2048) (o : Fin 10000), i = ix2 b o := ⟨i 0, i 1, eq_ix2 i⟩
  rw [val_main_v61_apply, val_main_call1_v10_apply, val_main_call1_v9_apply, val_main_call1_v8_apply,
    val_main_call1_v7_apply, val_main_call1_cst_1_apply, rowOfSum]
  simp only [val_main_call1_v6_apply, colOfSum, shifted_stage x0 x1 x2 x3 x4 x5 x6 x7 x8 x9 x10 x11 Xpad hX hZ, Ideal.subf_def,
    Ideal.hostUnary_exp_def, Ideal.hostUnary_log_def, Ideal.ofBits_def, Ideal.ofBits_zero_f32, zero_add]
  rfl

end Cert.RefVal

end
-- ==== Proof.RefAll.lean ====
import proofs.«408609_j52080773431571_2_alg».proof.Proof.RefEmb
import proofs.«408609_j52080773431571_2_alg».proof.Proof.RefMlp

noncomputable section

namespace Cert.RefVal

open Idealize.ShloMosaic Idealize.ShloMosaic.ValueIdx
open Cert.ReferenceIdeal Cert.ReferenceIdeal.ReadP

/-- The reference's 647 feature columns are the specification's first 647, the specification's other columns are zero, and the layers after them agree. -/
theorem ref_result (x0 : (⟨S2048x7, .f32⟩ : BufTy).Contents (Elt Ideal)) (x1 : (⟨S2048, .i32⟩ : BufTy).Contents (Elt Ideal))
    (x2 x3 : (⟨S2048x8, .i32⟩ : BufTy).Contents (Elt Ideal)) (x4 x5 : (⟨S2048x256, .f32⟩ : BufTy).Contents (Elt Ideal))
    (x6 : (⟨S10000x128, .f32⟩ : BufTy).Contents (Elt Ideal)) (x7 : (⟨S50000x256, .f32⟩ : BufTy).Contents (Elt Ideal))
    (x8 : (⟨S1024x647, .f32⟩ : BufTy).Contents (Elt Ideal)) (x9 : (⟨S1024, .f32⟩ : BufTy).Contents (Elt Ideal))
    (x10 : (⟨S10000x1024, .f32⟩ : BufTy).Contents (Elt Ideal)) (x11 : (⟨S10000, .f32⟩ : BufTy).Contents (Elt Ideal))
    (h1 : Cert.Spec.InRangeV 10000 x1) (h2 : Cert.Spec.InRange 50000 x2) (h3 : Cert.Spec.InRange 50000 x3) :
    val_main_v61 (F := Ideal) x0 x1 x2 x3 x4 x5 x6 x7 x8 x9 x10 x11
      = Cert.Spec.result x0 x1 x2 x3 x4 x5 x6 x7 x8 x9 x10 x11 := by
  unfold Cert.Spec.result
  refine ref_mlp x0 x1 x2 x3 x4 x5 x6 x7 x8 x9 x10 x11 _ (fun b j h => (ref_feat x0 x1 x2 x3 x4 x5 x6 x7 h1 h2 h3 b j h).symm) fun b j h => ?_
  show Cert.Spec.feat _ _ _ _ _ _ _ _ b j = 0
  unfold Cert.Spec.feat
  rw [dif_neg (by omega), dif_neg (by omega), dif_neg (by omega), dif_neg (by omega)]

end Cert.RefVal

end
-- ==== Proof.RefAfter.lean ====
import proofs.«408609_j52080773431571_2_alg».proof.Proof.RefBase

noncomputable section

namespace Cert.RefVal

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F] (V : Valuation τ sig (Elt F))
  {x0 : (⟨S2048x7, .f32⟩ : BufTy).Contents (Elt F)} {x1 : (⟨S2048, .i32⟩ : BufTy).Contents (Elt F)}
  {x2 x3 : (⟨S2048x8, .i32⟩ : BufTy).Contents (Elt F)} {x4 x5 : (⟨S2048x256, .f32⟩ : BufTy).Contents (Elt F)}
  {x6 : (⟨S10000x128, .f32⟩ : BufTy).Contents (Elt F)} {x7 : (⟨S50000x256, .f32⟩ : BufTy).Contents (Elt F)}
  {x8 : (⟨S1024x647, .f32⟩ : BufTy).Contents (Elt F)} {x9 : (⟨S1024, .f32⟩ : BufTy).Contents (Elt F)}
  {x10 : (⟨S10000x1024, .f32⟩ : BufTy).Contents (Elt F)} {x11 : (⟨S10000, .f32⟩ : BufTy).Contents (Elt F)}

/-- The `j` operations of the reference's line from position `k` on. -/
def seg (k j : Nat) : List (HloOp τ sig (Elt F)) := (ValueP.ops.drop k).take j

/-- The line in three stretches: up to the four-piece concatenation, from it to the logits, and the log-softmax. -/
theorem ops_split : (ValueP.ops : List (HloOp τ sig (Elt F))) = seg 0 63 ++ (seg 63 14 ++ seg 77 15) := rfl

/-- After the first stretch the three computed pieces are at their stages. -/
theorem segA_v6 : after (seg 0 63) V main_v6 = val_main_v6 (V main_arg1) (V main_arg6) := by
  simp only [seg, ValueP.ops, List.take, List.drop]
  after_results_simp <;> rfl

theorem segA_v46 : after (seg 0 63) V main_v46 = val_main_v46 (V main_arg2) (V main_arg4) (V main_arg7) := by
  simp only [seg, ValueP.ops, List.take, List.drop]
  after_results_simp <;> rfl

theorem segA_v48 : after (seg 0 63) V main_v48 = val_main_v48 (V main_arg3) (V main_arg5) (V main_arg7) := by
  simp only [seg, ValueP.ops, List.take, List.drop]
  after_results_simp <;> rfl

/-- The first stretch writes none of the arguments read after it. -/
theorem segA_keep {r : Ref sig .tc} (hr : r ∈ [main_arg0, main_arg8, main_arg9, main_arg10, main_arg11]) :
    after (seg 0 63) V r = V r := by
  simp only [seg, ValueP.ops, List.take, List.drop]
  fin_cases hr <;> after_results_simp

attribute [local irreducible] val_main_v6 val_main_v46 val_main_v48 in
/-- From the three pieces at their stages, the stretch from the concatenation on leaves the logits at theirs. -/
theorem segB (h6 : V main_v6 = val_main_v6 x1 x6) (h46 : V main_v46 = val_main_v46 x2 x4 x7) (h48 : V main_v48 = val_main_v48 x3 x5 x7)
    (h0 : V main_arg0 = x0) (h8 : V main_arg8 = x8) (h9 : V main_arg9 = x9) (h10 : V main_arg10 = x10) (h11 : V main_arg11 = x11) :
    after (seg 63 14) V main_v60 = val_main_v60 x0 x1 x2 x3 x4 x5 x6 x7 x8 x9 x10 x11 := by
  simp only [seg, ValueP.ops, List.take, List.drop]
  after_results_simp
  simp only [TRef.ofBuf, TRef.toBuf, cast_eq, Matrix.cons_val]
  rw [h6, h46, h48, h0, h8, h9, h10, h11]
  rfl

/-- Transport to the buffer's own type and back is the identity. -/
theorem ofBuf_toBuf {T : BufTy} (x : TRef sig T) (v : T.Contents (Elt F)) : x.ofBuf (x.toBuf v) = v := by
  obtain ⟨r, rfl, _, _⟩ := x
  rfl

theorem ofBuf_v60 (p1 : main_v60.ty = (⟨S2048x10000, .f32⟩ : BufTy)) (p2 : main_v60.space ≠ .host) (p3 : main_v60.isScoped = false)
    (v : (⟨S2048x10000, .f32⟩ : BufTy).Contents (Elt F)) :
    (TRef.of (sig := sig) (T := ⟨S2048x10000, .f32⟩) main_v60 p1 p2 p3).ofBuf v = v := rfl

theorem toBuf_v61 (p1 : main_v61.ty = (⟨S2048x10000, .f32⟩ : BufTy)) (p2 : main_v61.space ≠ .host) (p3 : main_v61.isScoped = false)
    (v : (⟨S2048x10000, .f32⟩ : BufTy).Contents (Elt F)) :
    (TRef.of (sig := sig) (T := ⟨S2048x10000, .f32⟩) main_v61 p1 p2 p3).toBuf v = v := rfl

attribute [local irreducible] val_main_v60 in
/-- From the logits at their stage, the last stretch leaves the result at the last stage. -/
theorem segC (h60 : V main_v60 = val_main_v60 x0 x1 x2 x3 x4 x5 x6 x7 x8 x9 x10 x11) :
    after (seg 77 15) V main_v61 = val_main_v61 x0 x1 x2 x3 x4 x5 x6 x7 x8 x9 x10 x11 := by
  simp only [seg, ValueP.ops, List.take, List.drop]
  after_results_simp
  rw [h60]
  simp only [val_main_v61, val_main_call1_v10, val_main_call1_v9, val_main_call1_v8, val_main_call1_v7, val_main_call1_cst_1,
    val_main_call1_v6, val_main_call1_v5, val_main_call1_v4, val_main_call1_v3, val_main_call1_v2, val_main_call1_v1,
    val_main_call1_cst_0, val_main_call1_v0, val_main_call1_cst, ofBuf_toBuf, ofBuf_v60, toBuf_v61]

/-- Read at the result buffer, the whole line computes the last stage from the arguments' contents. -/
theorem ref_after : after ValueP.ops V main_v61 = val_main_v61 (V main_arg0) (V main_arg1) (V main_arg2) (V main_arg3) (V main_arg4)
    (V main_arg5) (V main_arg6) (V main_arg7) (V main_arg8) (V main_arg9) (V main_arg10) (V main_arg11) := by
  rw [ops_split, after_append, after_append]
  exact segC _ (segB _ (segA_v6 V) (segA_v46 V) (segA_v48 V) (segA_keep V (by decide)) (segA_keep V (by decide)) (segA_keep V (by decide))
    (segA_keep V (by decide)) (segA_keep V (by decide)))

/-- No operation of the line writes an argument (four arguments at a time). -/
theorem keep₁ {r : Ref sig .tc} (hr : r ∈ [main_arg0, main_arg1, main_arg2, main_arg3]) : after ValueP.ops V r = V r := by
  fin_cases hr <;> after_results_simp

theorem keep₂ {r : Ref sig .tc} (hr : r ∈ [main_arg4, main_arg5, main_arg6, main_arg7]) : after ValueP.ops V r = V r := by
  fin_cases hr <;> after_results_simp

theorem keep₃ {r : Ref sig .tc} (hr : r ∈ [main_arg8, main_arg9, main_arg10, main_arg11]) : after ValueP.ops V r = V r := by
  fin_cases hr <;> after_results_simp

/-- The reference's run: the result buffer ends at the last stage of the launch contents, the arguments as they were. -/
theorem refrun (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v61).trans (ref_after _),
      (h c main_arg0).trans (keep₁ _ (by decide)), (h c main_arg1).trans (keep₁ _ (by decide)), (h c main_arg2).trans (keep₁ _ (by decide)), (h c main_arg3).trans (keep₁ _ (by decide)),
      (h c main_arg4).trans (keep₂ _ (by decide)), (h c main_arg5).trans (keep₂ _ (by decide)), (h c main_arg6).trans (keep₂ _ (by decide)), (h c main_arg7).trans (keep₂ _ (by decide)),
      (h c main_arg8).trans (keep₃ _ (by decide)), (h c main_arg9).trans (keep₃ _ (by decide)), (h c main_arg10).trans (keep₃ _ (by decide)), (h c main_arg11).trans (keep₃ _ (by decide))⟩)
    (run_seq ValueP.scopedRefs_eq ValueP.scopedSems_eq defs main (fun _ => ValueP.ops) ValueP.main_eq (fun _ => ValueP.ops_sub) m ρ)

end Cert.RefVal

end
-- ==== Proof.Pre.lean ====
import proofs.«408609_j52080773431571_2_alg».proof.Pre_finite_inputs
import proofs.«408609_j52080773431571_2_alg».proof.Proof.Spec
import Idealize.ShloMosaic.Lib.ReduceAll
import Idealize.ShloMosaic.Lib.ValueIdx
import Idealize.ShloMosaic.Lib.StableHlo.Predicate
import Idealize.ShloMosaic.PureOps.Ideal

namespace Cert.PreDecode

open Idealize.ShloMosaic Idealize.ShloMosaic.ValueIdx

instance : Subsingleton (⟨0, ![]⟩ : Shape).Idx := ⟨fun _ _ => funext fun d => d.elim0⟩

/-- An "and" over every entry that is one has a one at each entry, and a signed comparison bit that is one orders the words read as integers. -/
theorem all_in_range {s : Shape} {axes : List (Fin s.rank)} (N : Nat) (hN : N < 2 ^ 31) (ix : IVec s 32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (andi (cmpi .sge ix (broadcastInDim s ![] hb (constantI ⟨0, ![]⟩ 32 0#32)))
                (cmpi .slt ix (broadcastInDim s ![] hb (constantI ⟨0, ![]⟩ 32 (BitVec.ofNat 32 N)))))
          (constantI ⟨0, ![]⟩ 1 1#1) hr hu ix0 = 1#1) (i : s.Idx) :
    0 ≤ (ix i).toInt ∧ (ix i).toInt < N := by
  obtain ⟨h0, h1⟩ := IntOp.andi_eq_one.1 (Host.reduce_andi_all _ _ hr hu _ e i)
  have h0' : (0#32 : BitVec 32).toInt ≤ (ix i).toInt := IntOp.cmpi_sge.1 h0
  have h1' : (ix i).toInt < (BitVec.ofNat 32 N).toInt := IntOp.cmpi_slt.1 h1
  rw [StableHlo.Predicate.toInt_ofNat_small N hN] at h1'
  exact ⟨h0', h1'⟩

open Cert.Pre_finite_inputs in
/-- The last three conjuncts of the precondition are the range checks of the three index arguments. -/
theorem ranges_of_pre [Cert.Pre_finite_inputs.Facts]
    (a0 : FVec Ideal S2048x7 .f32) (a1 : IVec S2048 32) (a2 : IVec S2048x8 32) (a3 : IVec S2048x8 32)
    (a4 : FVec Ideal S2048x256 .f32) (a5 : FVec Ideal S2048x256 .f32) (a6 : FVec Ideal S10000x128 .f32)
    (a7 : FVec Ideal S50000x256 .f32) (a8 : FVec Ideal S1024x647 .f32) (a9 : FVec Ideal S1024 .f32)
    (a10 : FVec Ideal S10000x1024 .f32) (a11 : FVec Ideal S10000 .f32)
    (h : Cert.Pre_finite_inputs.fn (F := Ideal) a0 a1 a2 a3 a4 a5 a6 a7 a8 a9 a10 a11 = (fun _ => 1#1)) :
    Cert.Spec.InRangeV 10000 a1 ∧ Cert.Spec.InRange 50000 a2 ∧ Cert.Spec.InRange 50000 a3 := by
  have e := congrFun h ix0
  dsimp only [fn, fn_part1, fn_part2, fn_part3] at e
  obtain ⟨e12, e3⟩ := IntOp.andi_eq_one.1 e
  obtain ⟨e1', e2⟩ := IntOp.andi_eq_one.1 e12
  exact ⟨all_in_range 10000 (by norm_num) a1 _ _ _ (IntOp.andi_eq_one.1 e1').2, all_in_range 50000 (by norm_num) a2 _ _ _ e2,
    all_in_range 50000 (by norm_num) a3 _ _ _ e3⟩

end Cert.PreDecode
-- ==== Proof.lean ====
import proofs.«408609_j52080773431571_2_alg».proof.Defs
import proofs.«408609_j52080773431571_2_alg».proof.Proof.Gen.Kernel
import proofs.«408609_j52080773431571_2_alg».proof.Proof.Gen.KernelIdeal
import proofs.«408609_j52080773431571_2_alg».proof.Proof.Gen.ReferenceIdeal
import proofs.«408609_j52080773431571_2_alg».proof.Proof.Gen.Pre_finite_inputs
import proofs.«408609_j52080773431571_2_alg».proof.Proof.K.Run
import proofs.«408609_j52080773431571_2_alg».proof.Proof.KI.Run
import proofs.«408609_j52080773431571_2_alg».proof.Proof.KI.Chase
import proofs.«408609_j52080773431571_2_alg».proof.Proof.RefAll
import proofs.«408609_j52080773431571_2_alg».proof.Proof.RefAfter
import proofs.«408609_j52080773431571_2_alg».proof.Proof.Pre
import Idealize.ShloMosaic.Adequacy
import Idealize.ShloMosaic.Init

set_option maxRecDepth 16384

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

-- No host operation and no region's write-back touches an argument, so the run keeps it.
theorem frame_k : Cert.frame_Kernel := fun m ρ _ =>
  (θ_run (Cert.Kernel.defs (F := Bits)) _ _).mono (fun r h c =>
    ⟨(h c).2 Cert.Kernel.main_arg0 (by decide) (by decide),
      (h c).2 Cert.Kernel.main_arg1 (by decide) (by decide),
      (h c).2 Cert.Kernel.main_arg2 (by decide) (by decide),
      (h c).2 Cert.Kernel.main_arg3 (by decide) (by decide),
      (h c).2 Cert.Kernel.main_arg4 (by decide) (by decide),
      (h c).2 Cert.Kernel.main_arg5 (by decide) (by decide),
      (h c).2 Cert.Kernel.main_arg6 (by decide) (by decide),
      (h c).2 Cert.Kernel.main_arg7 (by decide) (by decide),
      (h c).2 Cert.Kernel.main_arg8 (by decide) (by decide),
      (h c).2 Cert.Kernel.main_arg9 (by decide) (by decide),
      (h c).2 Cert.Kernel.main_arg10 (by decide) (by decide),
      (h c).2 Cert.Kernel.main_arg11 (by decide) (by decide)⟩)
    (Cert.Kernel.Fr.run_kept (F := Bits) m ρ)

theorem frame_ki : Cert.frame_KernelIdeal := fun m ρ _ =>
  (θ_run (Cert.KernelIdeal.defs (F := Ideal)) _ _).mono (fun r h c =>
    ⟨(h c).2 Cert.KernelIdeal.main_arg0 (by decide) (by decide),
      (h c).2 Cert.KernelIdeal.main_arg1 (by decide) (by decide),
      (h c).2 Cert.KernelIdeal.main_arg2 (by decide) (by decide),
      (h c).2 Cert.KernelIdeal.main_arg3 (by decide) (by decide),
      (h c).2 Cert.KernelIdeal.main_arg4 (by decide) (by decide),
      (h c).2 Cert.KernelIdeal.main_arg5 (by decide) (by decide),
      (h c).2 Cert.KernelIdeal.main_arg6 (by decide) (by decide),
      (h c).2 Cert.KernelIdeal.main_arg7 (by decide) (by decide),
      (h c).2 Cert.KernelIdeal.main_arg8 (by decide) (by decide),
      (h c).2 Cert.KernelIdeal.main_arg9 (by decide) (by decide),
      (h c).2 Cert.KernelIdeal.main_arg10 (by decide) (by decide),
      (h c).2 Cert.KernelIdeal.main_arg11 (by decide) (by decide)⟩)
    (Cert.KernelIdeal.Fr.run_kept (F := Ideal) m ρ)

-- The reference's run with the result dropped.
theorem frame_ri : Cert.frame_ReferenceIdeal := fun m ρ _ =>
  (θ_run Cert.ReferenceIdeal.defs _ _).mono (fun _ h c => (h c).2) (Cert.RefVal.refrun m ρ)

-- Both programs end with the specification's result of the arguments; the reference needs the index words in range.
open Cert.KernelIdeal in
theorem algebraic : Cert.algebraic_KernelIdeal_ReferenceIdeal := by
  intro m g m' g' hpre hagree
  refine ⟨fun c => Cert.Spec.result (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)), ?_, ?_⟩
  · exact (θ_run (defs (F := Ideal)) _ _).mono (fun r h c =>
      ⟨((h c).1 _ (Fr.mem_uc main_v11 (by decide))).trans (Chase.W6_result m g c),
      (h c).2 main_arg0 (by decide) (by decide),
      (h c).2 main_arg1 (by decide) (by decide),
      (h c).2 main_arg2 (by decide) (by decide),
      (h c).2 main_arg3 (by decide) (by decide),
      (h c).2 main_arg4 (by decide) (by decide),
      (h c).2 main_arg5 (by decide) (by decide),
      (h c).2 main_arg6 (by decide) (by decide),
      (h c).2 main_arg7 (by decide) (by decide),
      (h c).2 main_arg8 (by decide) (by decide),
      (h c).2 main_arg9 (by decide) (by decide),
      (h c).2 main_arg10 (by decide) (by decide),
      (h c).2 main_arg11 (by decide) (by decide)⟩)
      (Fr.run_kept (F := Ideal) m g)
  · refine (θ_run Cert.ReferenceIdeal.defs _ _).mono (fun r h c => ⟨(h c).1.trans ?_, (h c).2⟩)
      (Cert.RefVal.refrun m' g')
    obtain ⟨h1, h2, h3⟩ := Cert.PreDecode.ranges_of_pre _ _ _ _ _ _ _ _ _ _ _ _ (hpre c)
    obtain ⟨a0, a1, a2, a3, a4, a5, a6, a7, a8, a9, a10, a11⟩ := hagree c
    rw [a0, a1, a2, a3, a4, a5, a6, a7, a8, a9, a10, a11]
    exact Cert.RefVal.ref_result _ _ _ _ _ _ _ _ _ _ _ _ h1 h2 h3

end

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.KernelIdeal.Gen.facts Cert.ReferenceIdeal.Gen.facts Cert.Pre_finite_inputs.Gen.facts,
    @frame_ki Cert.Kernel.Gen.facts Cert.KernelIdeal.Gen.facts Cert.ReferenceIdeal.Gen.facts Cert.Pre_finite_inputs.Gen.facts,
    @frame_ri Cert.Kernel.Gen.facts Cert.KernelIdeal.Gen.facts Cert.ReferenceIdeal.Gen.facts Cert.Pre_finite_inputs.Gen.facts,
    trivial,
    @algebraic Cert.Kernel.Gen.facts Cert.KernelIdeal.Gen.facts Cert.ReferenceIdeal.Gen.facts Cert.Pre_finite_inputs.Gen.facts⟩

end Cert.Proof

end
